-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S800000x16 : Shape := ⟨2, ![800000, 16]⟩
abbrev S2x800000 : Shape := ⟨2, ![2, 800000]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg2 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg2 main_v69
  let main_c_27 : IVec S_ 1 := constantI S_ 1 1#1
  let main_v71 : IVec S_ 1 := (fun x v => Host.reduce IntOp.andi x v reducesTo_S2x800000_S_d0_1 h_S_) main_v70 main_c_27
  let main_v72 : IVec S_ 1 := andi main_v68 main_v71
  let main_c_28 : IVec S_ 32 := constantI S_ 32 50000#32
  let main_v73 : IVec S2x800000 32 := broadcastInDim S2x800000 ![] bcast_S_S2x800000 main_c_28
  let main_v74 : IVec S2x800000 1 := cmpi .slt main_arg2 main_v73
  let main_c_29 : IVec S_ 1 := constantI S_ 1 1#1
  let main_v75 : IVec S_ 1 := (fun x v => Host.reduce IntOp.andi x v reducesTo_S2x800000_S_d0_1 h_S_) main_v74 main_c_29
  let main_v76 : IVec S_ 1 := andi main_v72 main_v75
  main_v76

def fn_part3 {F : FTy → Type} [FloatOps F] (main_arg2 : IVec S2x800000 32) (main_arg12 : FVec F S128 .f32) (main_arg13 : FVec F S128x64 .f32) (main_arg14 : FVec F S64 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_v63 main_v67

def fn_part2 {F : FTy → Type} [FloatOps F] (main_arg2 : IVec S2x800000 32) (main_arg8 : FVec F S64 .f32) (main_arg9 : FVec F S16x64 .f32) (main_arg10 : FVec F S64 .f32) (main_arg11 : FVec F S64x128 .f32) (main_arg12 : FVec F S128 .f32) (main_arg13 : FVec F S128x64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S16x64 .f32 := Host.absf main_arg9
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg2 main_arg12 main_arg13 main_arg14 main_v48 main_v49 main_v50

def fn_part1 {F : FTy → Type} [FloatOps F] (main_arg2 : IVec S2x800000 32) (main_arg5 : FVec F S16x64 .f32) (main_arg6 : FVec F S64 .f32) (main_arg7 : FVec F S16x64 .f32) (main_arg8 : FVec F S64 .f32) (main_arg9 : FVec F S16x64 .f32) (main_arg10 : FVec F S64 .f32) (main_arg11 : FVec F S64x128 .f32) (main_arg12 : FVec F S128 .f32) (main_arg13 : FVec F S128x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg5
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg7
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S50000x16 .f32) (main_arg1 : FVec F S800000x16 .f32) (main_arg2 : IVec S2x800000 32) (main_arg3 : FVec F S16x64 .f32) (main_arg4 : FVec F S64 .f32) (main_arg5 : FVec F S16x64 .f32) (main_arg6 : FVec F S64 .f32) (main_arg7 : FVec F S16x64 .f32) (main_arg8 : FVec F S64 .f32) (main_arg9 : FVec F S16x64 .f32) (main_arg10 : FVec F S64 .f32) (main_arg11 : FVec F S64x128 .f32) (main_arg12 : FVec F S128 .f32) (main_arg13 : FVec F S128x64 .f32) (main_arg14 : FVec F S64 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S50000x16 : Shape := ⟨2, ![50000, 16]⟩
abbrev S800000x16 : Shape := ⟨2, ![800000, 16]⟩
abbrev S2x800000 : Shape := ⟨2, ![2, 800000]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x8 : Shape := ⟨2, ![64, 8]⟩
abbrev S8x64 : Shape := ⟨2, ![8, 64]⟩
abbrev S1x800000 : Shape := ⟨2, ![1, 800000]⟩
abbrev S800000 : Shape := ⟨1, ![800000]⟩
abbrev S16x192 : Shape := ⟨2, ![16, 192]⟩
abbrev S192 : Shape := ⟨1, ![192]⟩
abbrev S1x64 : Shape := ⟨2, ![1, 64]⟩
abbrev S800000x64 : Shape := ⟨2, ![800000, 64]⟩
abbrev S20000x16 : Shape := ⟨2, ![20000, 16]⟩
abbrev S20000x64 : Shape := ⟨2, ![20000, 64]⟩
abbrev S1x192 : Shape := ⟨2, ![1, 192]⟩
abbrev S50000x192 : Shape := ⟨2, ![50000, 192]⟩
abbrev S10000x16 : Shape := ⟨2, ![10000, 16]⟩
abbrev S10000x192 : Shape := ⟨2, ![10000, 192]⟩
abbrev S50000x64 : Shape := ⟨2, ![50000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x8 : Shape := ⟨2, ![800000, 8]⟩
abbrev S5000x64 : Shape := ⟨2, ![5000, 64]⟩
abbrev S5000x8 : Shape := ⟨2, ![5000, 8]⟩
abbrev S50000x8 : Shape := ⟨2, ![50000, 8]⟩
abbrev S1x128 : Shape := ⟨2, ![1, 128]⟩
abbrev S10000x64 : Shape := ⟨2, ![10000, 64]⟩
abbrev S10000x128 : Shape := ⟨2, ![10000, 128]⟩

abbrev nBuf : Space → Nat
  | .hbm => 208
  | .vmem => 54
  | .smem => 0
  | _ => 0

abbrev hbmTy0_0 (i : Nat) : BufTy := match i % 128 with
  | 0 => ⟨S50000x16, .f32⟩
  | 1 => ⟨S800000x16, .f32⟩
  | 2 => ⟨S2x800000, .i32⟩
  | 3 => ⟨S16x64, .f32⟩
  | 4 => ⟨S64, .f32⟩
  | 5 => ⟨S16x64, .f32⟩
  | 6 => ⟨S64, .f32⟩
  | 7 => ⟨S16x64, .f32⟩
  | 8 => ⟨S64, .f32⟩
  | 9 => ⟨S16x64, .f32⟩
  | 10 => ⟨S64, .f32⟩
  | 11 => ⟨S64x128, .f32⟩
  | 12 => ⟨S128, .f32⟩
  | 13 => ⟨S128x64, .f32⟩
  | 14 => ⟨S64, .f32⟩
  | 15 => ⟨S64x8, .f32⟩
  | 16 => ⟨S8x64, .f32⟩
  | 17 => ⟨S1x800000, .i32⟩
  | 18 => ⟨S800000, .i32⟩
  | 19 => ⟨S1x800000, .i32⟩
  | 20 => ⟨S800000, .i32⟩
  | 21 => ⟨S16x192, .f32⟩
  | 22 => ⟨S192, .f32⟩
  | 23 => ⟨S1x64, .f32⟩
  | 24 => ⟨S800000x64, .f32⟩
  | 25 => ⟨S1x192, .f32⟩
  | 26 => ⟨S50000x192, .f32⟩
  | 27 => ⟨S50000x64, .f32⟩
  | 28 => ⟨S50000x64, .f32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S1, .i32⟩
  | 39 => ⟨S_, .i32⟩
  | 40 => ⟨S800000x1, .i32⟩
  | 41 => ⟨S800000x1, .i1⟩
  | 42 => ⟨S1x1, .i32⟩
  | 43 => ⟨S800000x1, .i32⟩
  | 44 => ⟨S800000x1, .i1⟩
  | 45 => ⟨S800000x1, .i1⟩
  | 46 => ⟨S_, .i1⟩
  | 47 => ⟨S800000, .i1⟩
  | 48 => ⟨S800000x64, .f32⟩
  | 49 => ⟨S800000x64, .i1⟩
  | 50 => ⟨S_, .f32⟩
  | 51 => ⟨S800000x64, .f32⟩
  | 52 => ⟨S800000x64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S1, .i32⟩
  | 62 => ⟨S_, .i32⟩
  | 63 => ⟨S800000x1, .i32⟩
  | 64 => ⟨S800000x1, .i1⟩
  | 65 => ⟨S1x1, .i32⟩
  | 66 => ⟨S800000x1, .i32⟩
  | 67 => ⟨S800000x1, .i1⟩
  | 68 => ⟨S800000x1, .i1⟩
  | 69 => ⟨S_, .i1⟩
  | 70 => ⟨S800000, .i1⟩
  | 71 => ⟨S800000x64, .f32⟩
  | 72 => ⟨S800000x64, .i1⟩
  | 73 => ⟨S_, .f32⟩
  | 74 => ⟨S800000x64, .f32⟩
  | 75 => ⟨S800000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S1, .i32⟩
  | 85 => ⟨S_, .i32⟩
  | 86 => ⟨S800000x1, .i32⟩
  | 87 => ⟨S800000x1, .i1⟩
  | 88 => ⟨S1x1, .i32⟩
  | 89 => ⟨S800000x1, .i32⟩
  | 90 => ⟨S800000x1, .i1⟩
  | 91 => ⟨S800000x1, .i1⟩
  | 92 => ⟨S_, .i1⟩
  | 93 => ⟨S800000, .i1⟩
  | 94 => ⟨S800000x64, .f32⟩
  | 95 => ⟨S800000x64, .i1⟩
  | 96 => ⟨S_, .f32⟩
  | 97 => ⟨S800000x64, .f32⟩
  | 98 => ⟨S800000x64, .f32⟩
  | 99 => ⟨S800000x8, .f32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S_, .f32⟩
  | 106 => ⟨S50000x8, .f32⟩
  | 107 => ⟨S800000x1, .i32⟩
  | 108 => ⟨S50000x8, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S50000x16, .f32⟩
  | 115 => ⟨S1x192, .f32⟩
  | 116 => ⟨S50000x192, .f32⟩
  | 117 => ⟨S50000x64, .f32⟩
  | 118 => ⟨S50000x64, .f32⟩
  | 119 => ⟨S50000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x16, .f32⟩

abbrev hbmTy0_1 (i : Nat) : BufTy := match i % 128 with
  | 0 => ⟨S1, .i32⟩
  | 1 => ⟨S_, .i32⟩
  | 2 => ⟨S800000x1, .i32⟩
  | 3 => ⟨S800000x1, .i1⟩
  | 4 => ⟨S1x1, .i32⟩
  | 5 => ⟨S800000x1, .i32⟩
  | 6 => ⟨S800000x1, .i1⟩
  | 7 => ⟨S800000x1, .i1⟩
  | 8 => ⟨S_, .i1⟩
  | 9 => ⟨S800000, .i1⟩
  | 10 => ⟨S800000x64, .f32⟩
  | 11 => ⟨S800000x64, .i1⟩
  | 12 => ⟨S_, .f32⟩
  | 13 => ⟨S800000x64, .f32⟩
  | 14 => ⟨S800000x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1, .i32⟩
  | 24 => ⟨S_, .i32⟩
  | 25 => ⟨S800000x1, .i32⟩
  | 26 => ⟨S800000x1, .i1⟩
  | 27 => ⟨S1x1, .i32⟩
  | 28 => ⟨S800000x1, .i32⟩
  | 29 => ⟨S800000x1, .i1⟩
  | 30 => ⟨S800000x1, .i1⟩
  | 31 => ⟨S_, .i1⟩
  | 32 => ⟨S800000, .i1⟩
  | 33 => ⟨S800000x64, .f32⟩
  | 34 => ⟨S800000x64, .i1⟩
  | 35 => ⟨S_, .f32⟩
  | 36 => ⟨S800000x64, .f32⟩
  | 37 => ⟨S800000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S1, .i32⟩
  | 47 => ⟨S_, .i32⟩
  | 48 => ⟨S800000x1, .i32⟩
  | 49 => ⟨S800000x1, .i1⟩
  | 50 => ⟨S1x1, .i32⟩
  | 51 => ⟨S800000x1, .i32⟩
  | 52 => ⟨S800000x1, .i1⟩
  | 53 => ⟨S800000x1, .i1⟩
  | 54 => ⟨S_, .i1⟩
  | 55 => ⟨S800000, .i1⟩
  | 56 => ⟨S800000x64, .f32⟩
  | 57 => ⟨S800000x64, .i1⟩
  | 58 => ⟨S_, .f32⟩
  | 59 => ⟨S800000x64, .f32⟩
  | 60 => ⟨S800000x64, .f32⟩
  | 61 => ⟨S800000x8, .f32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S_, .f32⟩
  | 68 => ⟨S50000x8, .f32⟩
  | 69 => ⟨S800000x1, .i32⟩
  | 70 => ⟨S50000x8, .f32⟩
  | 71 => ⟨S50000x64, .f32⟩
  | 72 => ⟨S_, .f32⟩
  | 73 => ⟨S50000x64, .f32⟩
  | 74 => ⟨S50000x64, .f32⟩
  | 75 => ⟨S50000x64, .f32⟩
  | 76 => ⟨S50000x64, .f32⟩
  | 77 => ⟨S1x128, .f32⟩
  | 78 => ⟨S1x64, .f32⟩
  | 79 => ⟨S50000x64, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S20000x16, .f32⟩
  | .local _ .vmem, ⟨1, _⟩ => ⟨S20000x16, .f32⟩
  | .local _ .vmem, ⟨2, _⟩ => ⟨S16x64, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | .local _ .vmem, ⟨6, _⟩ => ⟨S10000x16, .f32⟩
  | .local _ .vmem, ⟨7, _⟩ => ⟨S10000x16, .f32⟩
  | .local _ .vmem, ⟨8, _⟩ => ⟨S16x192, .f32⟩
  | .local _ .vmem, ⟨9, _⟩ => ⟨S1x192, .f32⟩
  | .local _ .vmem, ⟨10, _⟩ => ⟨S10000x192, .f32⟩
  | .local _ .vmem, ⟨11, _⟩ => ⟨S10000x192, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x8, .f32⟩
  | .local _ .vmem, ⟨21, _⟩ => ⟨S8x64, .f32⟩
  | .local _ .vmem, ⟨22, _⟩ => ⟨S5000x8, .f32⟩
  | .local _ .vmem, ⟨23, _⟩ => ⟨S5000x8, .f32⟩
  | .local _ .vmem, ⟨24, _⟩ => ⟨S5000x64, .f32⟩
  | .local _ .vmem, ⟨25, _⟩ => ⟨S5000x64, .f32⟩
  | .local _ .vmem, ⟨26, _⟩ => ⟨S10000x16, .f32⟩
  | .local _ .vmem, ⟨27, _⟩ => ⟨S10000x16, .f32⟩
  | .local _ .vmem, ⟨28, _⟩ => ⟨S16x192, .f32⟩
  | .local _ .vmem, ⟨29, _⟩ => ⟨S1x192, .f32⟩
  | .local _ .vmem, ⟨30, _⟩ => ⟨S10000x192, .f32⟩
  | .local _ .vmem, ⟨31, _⟩ => ⟨S10000x192, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x8, .f32⟩
  | .local _ .vmem, ⟨41, _⟩ => ⟨S8x64, .f32⟩
  | .local _ .vmem, ⟨42, _⟩ => ⟨S5000x8, .f32⟩
  | .local _ .vmem, ⟨43, _⟩ => ⟨S5000x8, .f32⟩
  | .local _ .vmem, ⟨44, _⟩ => ⟨S5000x64, .f32⟩
  | .local _ .vmem, ⟨45, _⟩ => ⟨S5000x64, .f32⟩
  | .local _ .vmem, ⟨46, _⟩ => ⟨S10000x64, .f32⟩
  | .local _ .vmem, ⟨47, _⟩ => ⟨S10000x64, .f32⟩
  | .local _ .vmem, ⟨48, _⟩ => ⟨S64x128, .f32⟩
  | .local _ .vmem, ⟨49, _⟩ => ⟨S1x128, .f32⟩
  | .local _ .vmem, ⟨50, _⟩ => ⟨S128x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v13 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v14 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v15 : Ref sig .tc := ⟨.hbm, 98, rfl⟩
abbrev main_v16_0 : Ref sig .tc := ⟨.hbm, 99, rfl⟩
abbrev main_v16_1 : Ref sig .tc := ⟨.hbm, 100, rfl⟩
abbrev main_cst_1 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_cst_2 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_cst_3 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_call3_cst : Ref sig .tc := ⟨.hbm, 140, rfl⟩
abbrev main_call3_v15 : Ref sig .tc := ⟨.hbm, 141, rfl⟩
abbrev main_v33 : Ref sig .tc := ⟨.hbm, 142, rfl⟩
abbrev main_call4_c : Ref sig .tc := ⟨.hbm, 143, rfl⟩
abbrev main_call4_v0 : Ref sig .tc := ⟨.hbm, 144, rfl⟩
abbrev main_call4_v1 : Ref sig .tc := ⟨.hbm, 145, rfl⟩
abbrev main_call4_c_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_c_1 : Ref sig .tc := ⟨.hbm, 151, rfl⟩
abbrev main_call4_c_2 : Ref sig .tc := ⟨.hbm, 152, rfl⟩
abbrev main_call4_v6 : Ref sig .tc := ⟨.hbm, 153, rfl⟩
abbrev main_call4_v7 : Ref sig .tc := ⟨.hbm, 154, rfl⟩
abbrev main_call4_v8 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_c_3 : Ref sig .tc := ⟨.hbm, 159, rfl⟩
abbrev main_call4_v12 : Ref sig .tc := ⟨.hbm, 160, rfl⟩
abbrev main_call4_v13 : Ref sig .tc := ⟨.hbm, 161, rfl⟩
abbrev main_call4_v14 : Ref sig .tc := ⟨.hbm, 162, rfl⟩
abbrev main_call4_cst : Ref sig .tc := ⟨.hbm, 163, rfl⟩
abbrev main_call4_v15 : Ref sig .tc := ⟨.hbm, 164, rfl⟩
abbrev main_v34 : Ref sig .tc := ⟨.hbm, 165, rfl⟩
abbrev main_call5_c : Ref sig .tc := ⟨.hbm, 166, rfl⟩
abbrev main_call5_v0 : Ref sig .tc := ⟨.hbm, 167, rfl⟩
abbrev main_call5_v1 : Ref sig .tc := ⟨.hbm, 168, rfl⟩
abbrev main_call5_c_0 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_call5_v5 : Ref sig .tc := ⟨.hbm, 173, rfl⟩
abbrev main_call5_c_1 : Ref sig .tc := ⟨.hbm, 174, rfl⟩
abbrev main_call5_c_2 : Ref sig .tc := ⟨.hbm, 175, rfl⟩
abbrev main_call5_v6 : Ref sig .tc := ⟨.hbm, 176, rfl⟩
abbrev main_call5_v7 : Ref sig .tc := ⟨.hbm, 177, rfl⟩
abbrev main_call5_v8 : Ref sig .tc := ⟨.hbm, 178, rfl⟩
abbrev main_call5_v9 : Ref sig .tc := ⟨.hbm, 179, rfl⟩
abbrev main_call5_v10 : Ref sig .tc := ⟨.hbm, 180, rfl⟩
abbrev main_call5_v11 : Ref sig .tc := ⟨.hbm, 181, rfl⟩
abbrev main_call5_c_3 : Ref sig .tc := ⟨.hbm, 182, rfl⟩
abbrev main_call5_v12 : Ref sig .tc := ⟨.hbm, 183, rfl⟩
abbrev main_call5_v13 : Ref sig .tc := ⟨.hbm, 184, rfl⟩
abbrev main_call5_v14 : Ref sig .tc := ⟨.hbm, 185, rfl⟩
abbrev main_call5_cst : Ref sig .tc := ⟨.hbm, 186, rfl⟩
abbrev main_call5_v15 : Ref sig .tc := ⟨.hbm, 187, rfl⟩
abbrev main_v35 : Ref sig .tc := ⟨.hbm, 188, rfl⟩
abbrev main_v36_0 : Ref sig .tc := ⟨.hbm, 189, rfl⟩
abbrev main_v36_1 : Ref sig .tc := ⟨.hbm, 190, rfl⟩
abbrev main_cst_4 : Ref sig .tc := ⟨.hbm, 191, rfl⟩
abbrev main_v37 : Ref sig .tc := ⟨.hbm, 192, rfl⟩
abbrev main_v38 : Ref sig .tc := ⟨.hbm, 193, rfl⟩
abbrev main_v39 : Ref sig .tc := ⟨.hbm, 194, rfl⟩
abbrev main_cst_5 : Ref sig .tc := ⟨.hbm, 195, rfl⟩
abbrev main_v40 : Ref sig .tc := ⟨.hbm, 196, rfl⟩
abbrev main_v41 : Ref sig .tc := ⟨.hbm, 197, rfl⟩
abbrev main_v42 : Ref sig .tc := ⟨.hbm, 198, rfl⟩
abbrev main_v43 : Ref sig .tc := ⟨.hbm, 199, rfl⟩
abbrev main_cst_6 : Ref sig .tc := ⟨.hbm, 200, rfl⟩
abbrev main_v44 : Ref sig .tc := ⟨.hbm, 201, rfl⟩
abbrev main_v45 : Ref sig .tc := ⟨.hbm, 202, rfl⟩
abbrev main_v46 : Ref sig .tc := ⟨.hbm, 203, rfl⟩
abbrev main_v47 : Ref sig .tc := ⟨.hbm, 204, rfl⟩
abbrev main_v48 : Ref sig .tc := ⟨.hbm, 205, rfl⟩
abbrev main_v49 : Ref sig .tc := ⟨.hbm, 206, rfl⟩
abbrev main_v50 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc4_stg7_0 : Ref sig .tc := ⟨.vmem, 44, rfl⟩
abbrev cc4_stg7_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem5_0 : DmaSem sig := 41
abbrev cc4_sem6_0 : DmaSem sig := 42
abbrev cc4_sem6_1 : DmaSem sig := 43
abbrev cc4_sem7_0 : DmaSem sig := 44
abbrev cc4_sem7_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x8 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S8x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x8 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S16x64_S16x64_S16x64_S16x192_d1 : Shape.Concatenates [S16x64, S16x64, S16x64] S16x192 1
  concatenates_S64_S64_S64_S192_d0 : Shape.Concatenates [S64, S64, S64] S192 0
  shapeCasts_S64_S1x64 : S64.ShapeCasts S1x64
  inb_S20000x16_S20000x16_0_0 : ∀ a, (![0, 0] : Fin 2 → Nat) a + S20000x16.size a ≤ S20000x16.size a
  h_S20000x16 : 0 < S20000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  shapeCasts_S192_S1x192 : S192.ShapeCasts S1x192
  inb_S10000x16_S10000x16_0_0 : ∀ a, (![0, 0] : Fin 2 → Nat) a + S10000x16.size a ≤ S10000x16.size a
  h_S10000x16 : 0 < S10000x16.numel
  inb_S16x192_S16x192_0_0 : ∀ a, (![0, 0] : Fin 2 → Nat) a + S16x192.size a ≤ S16x192.size a
  h_S16x192 : 0 < S16x192.numel
  shapeCasts_S16x192_S16x192 : S16x192.ShapeCasts S16x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S10000x192 : S1x192.Broadcasts S10000x192
  inb_S10000x192_S10000x192_0_0 : ∀ a, (![0, 0] : Fin 2 → Nat) a + S10000x192.size a ≤ S10000x192.size a
  h_S10000x192 : 0 < S10000x192.numel
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x8_S64x8_0_0 : ∀ a, (![0, 0] : Fin 2 → Nat) a + S64x8.size a ≤ S64x8.size a
  h_S64x8 : 0 < S64x8.numel
  inb_S8x64_S8x64_0_0 : ∀ a, (![0, 0] : Fin 2 → Nat) a + S8x64.size a ≤ S8x64.size a
  h_S8x64 : 0 < S8x64.numel
  inb_S5000x8_S5000x8_0_0 : ∀ a, (![0, 0] : Fin 2 → Nat) a + S5000x8.size a ≤ S5000x8.size a
  h_S5000x8 : 0 < S5000x8.numel
  bcast_S_S50000x64 : S_.BroadcastsInDim S50000x64 (![] : Fin 0 → Fin S50000x64.rank)
  bcast_S_S50000x8 : S_.BroadcastsInDim S50000x8 (![] : Fin 0 → Fin S50000x8.rank)
  shapeCasts_S10000x16_S10000x16 : S10000x16.ShapeCasts S10000x16
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  broadcasts_S1x64_S10000x64 : S1x64.Broadcasts S10000x64
  dot_S20000x16_S16x64_S20000x64_1_0_0_1_n_n_wf : DotDims.WF S20000x16 S16x64 S20000x64 [1] [0] [0] [1] [] []
  dot_S10000x16_S16x192_S10000x192_1_0_0_1_n_n_wf : DotDims.WF S10000x16 S16x192 S10000x192 [1] [0] [0] [1] [] []
  gather_S50000x64_S800000x1_S800000x64_1_0_n_n_0_1_164_wf : GatherDims.WF S50000x64 S800000x1 S800000x64 [1] [0] [] [0] [] 1 ![1, 64]
  dot_S5000x64_S64x8_S5000x8_1_0_0_1_n_n_wf : DotDims.WF S5000x64 S64x8 S5000x8 [1] [0] [0] [1] [] []
  dot_S5000x8_S8x64_S5000x64_1_0_0_1_n_n_wf : DotDims.WF S5000x8 S8x64 S5000x64 [1] [0] [0] [1] [] []
  scatter_S50000x64_S800000x1_S800000x64_1_0_0_1_wf : ScatterDims.WF S50000x64 S800000x1 S800000x64 [1] [0] [0] 1
  scatter_S50000x8_S800000x1_S800000x8_1_0_0_1_wf : ScatterDims.WF S50000x8 S800000x1 S800000x8 [1] [0] [0] 1
  dot_S50000x8_S8x64_S50000x64_1_0_0_1_n_n_wf : DotDims.WF S50000x8 S8x64 S50000x64 [1] [0] [0] [1] [] []
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x16.size a ≤ S800000x16.size a
  hwx0_0 : ∀ i : grid0.Coords, EltTy.bits .f32 = 32 ∨ (Rect.block (s := S800000x16) S20000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S800000x64.size a
  hwx0_3 : ∀ i : grid0.Coords, EltTy.bits .f32 = 32 ∨ (Rect.block (s := S800000x64) S20000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S50000x16.size a
  hwx1_0 : ∀ i : grid1.Coords, EltTy.bits .f32 = 32 ∨ (Rect.block (s := S50000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x192.size a ≤ S16x192.size a
  hwx1_1 : ∀ i : grid1.Coords, EltTy.bits .f32 = 32 ∨ (Rect.block (s := S16x192) S16x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x192.size a ≤ S1x192.size a
  hwx1_2 : ∀ i : grid1.Coords, EltTy.bits .f32 = 32 ∨ (Rect.block (s := S1x192) S1x192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x192.size a ≤ S50000x192.size a
  hwx1_3 : ∀ i : grid1.Coords, EltTy.bits .f32 = 32 ∨ (Rect.block (s := S50000x192) S10000x192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S800000x64.size a
  hwx2_0 : ∀ i : grid2.Coords, EltTy.bits .f32 = 32 ∨ (Rect.block (s := S800000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S800000x64.size a
  hwx2_1 : ∀ i : grid2.Coords, EltTy.bits .f32 = 32 ∨ (Rect.block (s := S800000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S800000x64.size a
  hwx2_2 : ∀ i : grid2.Coords, EltTy.bits .f32 = 32 ∨ (Rect.block (s := S800000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S800000x64.size a
  hwx2_3 : ∀ i : grid2.Coords, EltTy.bits .f32 = 32 ∨ (Rect.block (s := S800000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x8.size a ≤ S64x8.size a
  hwx2_4 : ∀ i : grid2.Coords, EltTy.bits .f32 = 32 ∨ (Rect.block (s := S64x8) S64x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x64.size a ≤ S8x64.size a
  hwx2_5 : ∀ i : grid2.Coords, EltTy.bits .f32 = 32 ∨ (Rect.block (s := S8x64) S8x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x8.size a ≤ S800000x8.size a
  hwx2_6 : ∀ i : grid2.Coords, EltTy.bits .f32 = 32 ∨ (Rect.block (s := S800000x8) S5000x8.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S800000x64.size a
  hwx2_7 : ∀ i : grid2.Coords, EltTy.bits .f32 = 32 ∨ (Rect.block (s := S800000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S50000x16.size a
  hwx3_0 : ∀ i : grid3.Coords, EltTy.bits .f32 = 32 ∨ (Rect.block (s := S50000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x192.size a ≤ S16x192.size a
  hwx3_1 : ∀ i : grid3.Coords, EltTy.bits .f32 = 32 ∨ (Rect.block (s := S16x192) S16x192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x192.size a ≤ S1x192.size a
  hwx3_2 : ∀ i : grid3.Coords, EltTy.bits .f32 = 32 ∨ (Rect.block (s := S1x192) S1x192.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x192.size a ≤ S50000x192.size a
  hwx3_3 : ∀ i : grid3.Coords, EltTy.bits .f32 = 32 ∨ (Rect.block (s := S50000x192) S10000x192.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S800000x64.size a
  hwx4_0 : ∀ i : grid4.Coords, EltTy.bits .f32 = 32 ∨ (Rect.block (s := S800000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S800000x64.size a
  hwx4_1 : ∀ i : grid4.Coords, EltTy.bits .f32 = 32 ∨ (Rect.block (s := S800000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S800000x64.size a
  hwx4_2 : ∀ i : grid4.Coords, EltTy.bits .f32 = 32 ∨ (Rect.block (s := S800000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S800000x64.size a
  hwx4_3 : ∀ i : grid4.Coords, EltTy.bits .f32 = 32 ∨ (Rect.block (s := S800000x64) S5000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x8.size a ≤ S64x8.size a
  hwx4_4 : ∀ i : grid4.Coords, EltTy.bits .f32 = 32 ∨ (Rect.block (s := S64x8) S64x8.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S8x64.size a ≤ S8x64.size a
  hwx4_5 : ∀ i : grid4.Coords, EltTy.bits .f32 = 32 ∨ (Rect.block (s := S8x64) S8x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x8.size a ≤ S800000x8.size a
  hwx4_6 : ∀ i : grid4.Coords, EltTy.bits .f32 = 32 ∨ (Rect.block (s := S800000x8) S5000x8.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S800000x64.size a
  hwx4_7 : ∀ i : grid4.Coords, EltTy.bits .f32 = 32 ∨ (Rect.block (s := S800000x64) S5000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S50000x64.size a
  hwx5_5 : ∀ i : grid5.Coords, EltTy.bits .f32 = 32 ∨ (Rect.block (s := S50000x64) S10000x64.size (cc5_transform_5 i) (hinb5_5 i)).WholeWords (EltTy.packing .f32)

variable [Facts₀]

def dot_S20000x16_S16x64_S20000x64_1_0_0_1_n_n : DotDims S20000x16 S16x64 S20000x64 where
  lhsContracting := [1]
  rhsContracting := [0]
  lhsNonContracting := [0]
  rhsNonContracting := [1]
  lhsBatch := []
  rhsBatch := []
  wf := dot_S20000x16_S16x64_S20000x64_1_0_0_1_n_n_wf
def dot_S10000x16_S16x192_S10000x192_1_0_0_1_n_n : DotDims S10000x16 S16x192 S10000x192 where
  lhsContracting := [1]
  rhsContracting := [0]
  lhsNonContracting := [0]
  rhsNonContracting := [1]
  lhsBatch := []
  rhsBatch := []
  wf := dot_S10000x16_S16x192_S10000x192_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def dot_S50000x8_S8x64_S50000x64_1_0_0_1_n_n : DotDims S50000x8 S8x64 S50000x64 where
  lhsContracting := [1]
  rhsContracting := [0]
  lhsNonContracting := [0]
  rhsNonContracting := [1]
  lhsBatch := []
  rhsBatch := []
  wf := dot_S50000x8_S8x64_S50000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg1) S20000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S16x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S10000x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_cst) S64x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_cst_0) S8x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16_0) S5000x8.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v16_1) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v27) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S16x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S10000x192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v33) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v7) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_cst) S64x8.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_cst_0) S8x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v36_0) S5000x8.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v36_1) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v47) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v48) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v49) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v50) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x16 : Shape := ⟨2, ![50000, 16]⟩
abbrev S800000x16 : Shape := ⟨2, ![800000, 16]⟩
abbrev S2x800000 : Shape := ⟨2, ![2, 800000]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S50000x8x8 : Shape := ⟨3, ![50000, 8, 8]⟩
abbrev S800000x64 : Shape := ⟨2, ![800000, 64]⟩
abbrev S800000x8x8 : Shape := ⟨3, ![800000, 8, 8]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩
abbrev S50000x128 : Shape := ⟨2, ![50000, 128]⟩
abbrev S1x128 : Shape := ⟨2, ![1, 128]⟩

abbrev nBuf : Space → Nat
  | .hbm => 191
  | .vmem => 0
  | .smem => 0
  | _ => 0

abbrev hbmTy0_0 (i : Nat) : BufTy := match i % 128 with
  | 0 => ⟨S50000x16, .f32⟩
  | 1 => ⟨S800000x16, .f32⟩
  | 2 => ⟨S2x800000, .i32⟩
  | 3 => ⟨S16x64, .f32⟩
  | 4 => ⟨S64, .f32⟩
  | 5 => ⟨S16x64, .f32⟩
  | 6 => ⟨S64, .f32⟩
  | 7 => ⟨S16x64, .f32⟩
  | 8 => ⟨S64, .f32⟩
  | 9 => ⟨S16x64, .f32⟩
  | 10 => ⟨S64, .f32⟩
  | 11 => ⟨S64x128, .f32⟩
  | 12 => ⟨S128, .f32⟩
  | 13 => ⟨S128x64, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S50000x64, .f32⟩
  | 20 => ⟨S1x64, .f32⟩
  | 21 => ⟨S50000x64, .f32⟩
  | 22 => ⟨S50000x64, .f32⟩
  | 23 => ⟨S50000x8x8, .f32⟩
  | 24 => ⟨S50000x64, .f32⟩
  | 25 => ⟨S1x64, .f32⟩
  | 26 => ⟨S50000x64, .f32⟩
  | 27 => ⟨S50000x64, .f32⟩
  | 28 => ⟨S50000x8x8, .f32⟩
  | 29 => ⟨S50000x64, .f32⟩
  | 30 => ⟨S1x64, .f32⟩
  | 31 => ⟨S50000x64, .f32⟩
  | 32 => ⟨S50000x64, .f32⟩
  | 33 => ⟨S50000x8x8, .f32⟩
  | 34 => ⟨S800000x64, .f32⟩
  | 35 => ⟨S1x64, .f32⟩
  | 36 => ⟨S800000x64, .f32⟩
  | 37 => ⟨S800000x64, .f32⟩
  | 38 => ⟨S800000x8x8, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x8x8, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x8x8, .f32⟩
  | 57 => ⟨S800000x8x8, .f32⟩
  | 58 => ⟨S_, .f32⟩
  | 59 => ⟨S800000x8x8, .f32⟩
  | 60 => ⟨S800000x8x8, .f32⟩
  | 61 => ⟨S800000x8x8, .f32⟩
  | 62 => ⟨S_, .f32⟩
  | 63 => ⟨S800000x8, .f32⟩
  | 64 => ⟨S_, .f32⟩
  | 65 => ⟨S_, .f32⟩
  | 66 => ⟨S_, .f32⟩
  | 67 => ⟨S800000x8, .f32⟩
  | 68 => ⟨S800000x8, .f32⟩
  | 69 => ⟨S_, .f32⟩
  | 70 => ⟨S800000x8, .f32⟩
  | 71 => ⟨S800000x8, .f32⟩
  | 72 => ⟨S800000x8, .f32⟩
  | 73 => ⟨S800000x8x1, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x8x8, .f32⟩
  | 83 => ⟨S800000x8x8, .f32⟩
  | 84 => ⟨S800000x8x8, .f32⟩
  | 85 => ⟨S_, .f32⟩
  | 86 => ⟨S50000x8x8, .f32⟩
  | 87 => ⟨S800000x1, .i32⟩
  | 88 => ⟨S50000x8x8, .f32⟩
  | 89 => ⟨S_, .f32⟩
  | 90 => ⟨S50000x8x1, .f32⟩
  | 91 => ⟨S800000x1, .i32⟩
  | 92 => ⟨S50000x8x1, .f32⟩
  | 93 => ⟨S_, .f32⟩
  | 94 => ⟨S50000x8x1, .f32⟩
  | 95 => ⟨S50000x8x1, .f32⟩
  | 96 => ⟨S50000x8x8, .f32⟩
  | 97 => ⟨S50000x8x8, .f32⟩
  | 98 => ⟨S50000x16, .f32⟩
  | 99 => ⟨S50000x64, .f32⟩
  | 100 => ⟨S1x64, .f32⟩
  | 101 => ⟨S50000x64, .f32⟩
  | 102 => ⟨S50000x64, .f32⟩
  | 103 => ⟨S50000x8x8, .f32⟩
  | 104 => ⟨S50000x64, .f32⟩
  | 105 => ⟨S1x64, .f32⟩
  | 106 => ⟨S50000x64, .f32⟩
  | 107 => ⟨S50000x64, .f32⟩
  | 108 => ⟨S50000x8x8, .f32⟩
  | 109 => ⟨S50000x64, .f32⟩
  | 110 => ⟨S1x64, .f32⟩
  | 111 => ⟨S50000x64, .f32⟩
  | 112 => ⟨S50000x64, .f32⟩
  | 113 => ⟨S50000x8x8, .f32⟩
  | 114 => ⟨S800000x64, .f32⟩
  | 115 => ⟨S1x64, .f32⟩
  | 116 => ⟨S800000x64, .f32⟩
  | 117 => ⟨S800000x64, .f32⟩
  | 118 => ⟨S800000x8x8, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x8x8, .f32⟩
  | _ => ⟨S50000x16, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x8x8, .f32⟩
  | 9 => ⟨S800000x8x8, .f32⟩
  | 10 => ⟨S_, .f32⟩
  | 11 => ⟨S800000x8x8, .f32⟩
  | 12 => ⟨S800000x8x8, .f32⟩
  | 13 => ⟨S800000x8x8, .f32⟩
  | 14 => ⟨S_, .f32⟩
  | 15 => ⟨S800000x8, .f32⟩
  | 16 => ⟨S_, .f32⟩
  | 17 => ⟨S_, .f32⟩
  | 18 => ⟨S_, .f32⟩
  | 19 => ⟨S800000x8, .f32⟩
  | 20 => ⟨S800000x8, .f32⟩
  | 21 => ⟨S_, .f32⟩
  | 22 => ⟨S800000x8, .f32⟩
  | 23 => ⟨S800000x8, .f32⟩
  | 24 => ⟨S800000x8, .f32⟩
  | 25 => ⟨S800000x8x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x8x8, .f32⟩
  | 35 => ⟨S800000x8x8, .f32⟩
  | 36 => ⟨S800000x8x8, .f32⟩
  | 37 => ⟨S_, .f32⟩
  | 38 => ⟨S50000x8x8, .f32⟩
  | 39 => ⟨S800000x1, .i32⟩
  | 40 => ⟨S50000x8x8, .f32⟩
  | 41 => ⟨S_, .f32⟩
  | 42 => ⟨S50000x8x1, .f32⟩
  | 43 => ⟨S800000x1, .i32⟩
  | 44 => ⟨S50000x8x1, .f32⟩
  | 45 => ⟨S_, .f32⟩
  | 46 => ⟨S50000x8x1, .f32⟩
  | 47 => ⟨S50000x8x1, .f32⟩
  | 48 => ⟨S50000x8x8, .f32⟩
  | 49 => ⟨S50000x8x8, .f32⟩
  | 50 => ⟨S50000x8x8, .f32⟩
  | 51 => ⟨S50000x64, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x64, .f32⟩
  | 60 => ⟨S1x64, .f32⟩
  | 61 => ⟨S50000x64, .f32⟩
  | 62 => ⟨S50000x64, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_1 : Ref sig .tc := ⟨.hbm, 48, rfl⟩
abbrev main_v31 : Ref sig .tc := ⟨.hbm, 49, rfl⟩
abbrev main_v32 : Ref sig .tc := ⟨.hbm, 50, rfl⟩
abbrev main_c_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_cst_4 : Ref sig .tc := ⟨.hbm, 64, rfl⟩
abbrev main_cst_5 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_6 : Ref sig .tc := ⟨.hbm, 74, rfl⟩
abbrev main_v46 : Ref sig .tc := ⟨.hbm, 75, rfl⟩
abbrev main_v47 : Ref sig .tc := ⟨.hbm, 76, rfl⟩
abbrev main_c_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_11 : Ref sig .tc := ⟨.hbm, 119, rfl⟩
abbrev main_v86 : Ref sig .tc := ⟨.hbm, 120, rfl⟩
abbrev main_v87 : Ref sig .tc := ⟨.hbm, 121, rfl⟩
abbrev main_c_12 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_13 : Ref sig .tc := ⟨.hbm, 128, rfl⟩
abbrev main_v93 : Ref sig .tc := ⟨.hbm, 129, rfl⟩
abbrev main_v94 : Ref sig .tc := ⟨.hbm, 130, rfl⟩
abbrev main_c_14 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_15 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_16 : Ref sig .tc := ⟨.hbm, 142, rfl⟩
abbrev main_v104 : Ref sig .tc := ⟨.hbm, 143, rfl⟩
abbrev main_cst_17 : Ref sig .tc := ⟨.hbm, 144, rfl⟩
abbrev main_cst_18 : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_call1_v3 : Ref sig .tc := ⟨.hbm, 149, rfl⟩
abbrev main_call1_v4 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_19 : Ref sig .tc := ⟨.hbm, 154, rfl⟩
abbrev main_v108 : Ref sig .tc := ⟨.hbm, 155, rfl⟩
abbrev main_v109 : Ref sig .tc := ⟨.hbm, 156, rfl⟩
abbrev main_c_20 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_21 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_22 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_23 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_call2_cst : Ref sig .tc := ⟨.hbm, 184, rfl⟩
abbrev main_call2_v0 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S50000x64_S50000x8x8 : S50000x64.ShapeCasts S50000x8x8
  bcast_S1x64_S800000x64_0_1 : S1x64.BroadcastsInDim S800000x64 (![0, 1] : Fin 2 → Fin S800000x64.rank)
  shapeCasts_S800000x64_S800000x8x8 : S800000x64.ShapeCasts S800000x8x8
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x8 : S_.BroadcastsInDim S800000x8x8 (![] : Fin 0 → Fin S800000x8x8.rank)
  reducesTo_S800000x8x8_S800000x8_d2 : S800000x8x8.ReducesTo [2] S800000x8
  h_S_ : 0 < S_.numel
  bcast_S_S800000x8 : S_.BroadcastsInDim S800000x8 (![] : Fin 0 → Fin S800000x8.rank)
  bcast_S800000x8_S800000x8x1_0_1 : S800000x8.BroadcastsInDim S800000x8x1 (![0, 1] : Fin 2 → Fin S800000x8x1.rank)
  bcast_S800000x8x1_S800000x8x8_0_1_2 : S800000x8x1.BroadcastsInDim S800000x8x8 (![0, 1, 2] : Fin 3 → Fin S800000x8x8.rank)
  bcast_S_S50000x8x8 : S_.BroadcastsInDim S50000x8x8 (![] : Fin 0 → Fin S50000x8x8.rank)
  bcast_S_S50000x8x1 : S_.BroadcastsInDim S50000x8x1 (![] : Fin 0 → Fin S50000x8x1.rank)
  bcast_S50000x8x1_S50000x8x8_0_1_2 : S50000x8x1.BroadcastsInDim S50000x8x8 (![0, 1, 2] : Fin 3 → Fin S50000x8x8.rank)
  shapeCasts_S50000x8x8_S50000x64 : S50000x8x8.ShapeCasts S50000x64
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  dot_S50000x16_S16x64_S50000x64_1_0_0_1_n_n_wf : DotDims.WF S50000x16 S16x64 S50000x64 [1] [0] [0] [1] [] []
  dot_S800000x16_S16x64_S800000x64_1_0_0_1_n_n_wf : DotDims.WF S800000x16 S16x64 S800000x64 [1] [0] [0] [1] [] []
  gather_S50000x8x8_S800000x1_S800000x8x8_12_0_n_n_0_1_188_wf : GatherDims.WF S50000x8x8 S800000x1 S800000x8x8 [1, 2] [0] [] [0] [] 1 ![1, 8, 8]
  scatter_S50000x8x8_S800000x1_S800000x8x8_12_0_0_1_wf : ScatterDims.WF S50000x8x8 S800000x1 S800000x8x8 [1, 2] [0] [0] 1
  scatter_S50000x8x1_S800000x1_S800000x8x1_12_0_0_1_wf : ScatterDims.WF S50000x8x1 S800000x1 S800000x8x1 [1, 2] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []

variable [Facts₀]

def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def gather_S50000x8x8_S800000x1_S800000x8x8_12_0_n_n_0_1_188 : GatherDims S50000x8x8 S800000x1 S800000x8x8 where
  offsetDims := [1, 2]
  collapsedSliceDims := [0]
  operandBatchingDims := []
  startIndicesBatchingDims := []
  startIndexMap := [0]
  indexVectorDim := 1
  sliceSizes := ![1, 8, 8]
  wf := gather_S50000x8x8_S800000x1_S800000x8x8_12_0_n_n_0_1_188_wf
def scatter_S50000x8x8_S800000x1_S800000x8x8_12_0_0_1 : ScatterDims S50000x8x8 S800000x1 S800000x8x8 where
  updateWindowDims := [1, 2]
  insertedWindowDims := [0]
  scatterDimsToOperandDims := [0]
  indexVectorDim := 1
  wf := scatter_S50000x8x8_S800000x1_S800000x8x8_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.K.R0.lean ====
import proofs.«412297_j88252987998303_2_alg».proof.Proof.Gen.Kernel.Launch
import proofs.«412297_j88252987998303_2_alg».proof.Proof.Gen.Kernel.Skeleton
import proofs.«412297_j88252987998303_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S20000x16 := Rect.unit (s := S20000x16) ![0, 0] S20000x16.size inb_S20000x16_S20000x16_0_0
abbrev r0_1 : Rect S16x64 := Rect.unit (s := S16x64) ![0, 0] S16x64.size inb_S16x64_S16x64_0_0
abbrev r0_2 : Rect S1x64 := Rect.unit (s := S1x64) ![0, 0] S1x64.size inb_S1x64_S1x64_0_0
abbrev r0_3 : Rect S20000x64 := Rect.unit (s := S20000x64) ![0, 0] S20000x64.size inb_S20000x64_S20000x64_0_0

def out0_3 (x0 : Vec F S20000x16 .f32) (x1 : Vec F S16x64 .f32) (x2 : Vec F S1x64 .f32) : Vec F S20000x64 .f32 :=
  View.canon [⟨r0_3, k0_pay1 (View.ld x0 r0_0) (View.ld x1 r0_1) (View.ld x2 r0_2)⟩]

theorem cover0_3 (p0 : Vec F S20000x64 .f32) (y : S20000x64.Idx) :
    ∃ pc ∈ ([⟨r0_3, p0⟩] : List (View.Piece (Elt F) S20000x64 .f32)), y ∈ pc.1.set :=
  View.cover_of_tiled [⟨r0_3, p0⟩] S20000x64.size (by rfl) y

set_option maxHeartbeats 1000000 in

theorem sound_kernel0 (c : Dev nD) (E : Set ℕ) (i : grid0.Coords) (arg1 : Memref sig .tc .vmem S20000x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S20000x64 .f32) (harg4 : arg4.IsWhole)
    (x0 : Vec F S20000x16 .f32) (x1 : Vec F S16x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__edge_proj_kernel i arg1 harg1 arg2 harg2 arg3 harg3 arg4 harg4) K := by
  simp only [cc0__edge_proj_kernel_eq_skeleton]; unfold cc0__edge_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Regions

end Cert.Kernel.Fr
-- ==== Proof.K.R1.lean ====
import proofs.«412297_j88252987998303_2_alg».proof.Proof.Gen.Kernel.Launch
import proofs.«412297_j88252987998303_2_alg».proof.Proof.Gen.Kernel.Skeleton
import proofs.«412297_j88252987998303_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x16 := Rect.unit (s := S10000x16) ![0, 0] S10000x16.size inb_S10000x16_S10000x16_0_0
abbrev r1_1 : Rect S16x192 := Rect.unit (s := S16x192) ![0, 0] S16x192.size inb_S16x192_S16x192_0_0
abbrev r1_2 : Rect S1x192 := Rect.unit (s := S1x192) ![0, 0] S1x192.size inb_S1x192_S1x192_0_0
abbrev r1_3 : Rect S10000x192 := Rect.unit (s := S10000x192) ![0, 0] S10000x192.size inb_S10000x192_S10000x192_0_0

def out1_3 (x0 : Vec F S10000x16 .f32) (x1 : Vec F S16x192 .f32) (x2 : Vec F S1x192 .f32) : Vec F S10000x192 .f32 :=
  View.canon [⟨r1_3, k1_pay1 (View.ld x0 r1_0) (View.ld x1 r1_1) (View.ld x2 r1_2)⟩]

theorem cover1_3 (p0 : Vec F S10000x192 .f32) (y : S10000x192.Idx) :
    ∃ pc ∈ ([⟨r1_3, p0⟩] : List (View.Piece (Elt F) S10000x192 .f32)), y ∈ pc.1.set :=
  View.cover_of_tiled [⟨r1_3, p0⟩] S10000x192.size (by rfl) y

set_option maxHeartbeats 1000000 in

theorem sound_kernel1 (c : Dev nD) (E : Set ℕ) (i : grid1.Coords) (arg1 : Memref sig .tc .vmem S10000x16 .f32) (harg1 : arg1.IsWhole) (arg2 : Memref sig .tc .vmem S16x192 .f32) (harg2 : arg2.IsWhole) (arg3 : Memref sig .tc .vmem S1x192 .f32) (harg3 : arg3.IsWhole) (arg4 : Memref sig .tc .vmem S10000x192 .f32) (harg4 : arg4.IsWhole)
    (x0 : Vec F S10000x16 .f32) (x1 : Vec F S16x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__qkv_kernel i arg1 harg1 arg2 harg2 arg3 harg3 arg4 harg4) K := by
  simp only [cc1__qkv_kernel_eq_skeleton]; unfold cc1__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Region

end Cert.Kernel.Fr

end
-- ==== Proof.K.R2.lean ====
import proofs.«412297_j88252987998303_2_alg».proof.Proof.Gen.Kernel.Launch
import proofs.«412297_j88252987998303_2_alg».proof.Proof.Gen.Kernel.Skeleton
import proofs.«412297_j88252987998303_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64x8 := Rect.unit (s := S64x8) ![0, 0] S64x8.size inb_S64x8_S64x8_0_0
abbrev r2_2 : Rect S8x64 := Rect.unit (s := S8x64) ![0, 0] S8x64.size inb_S8x64_S8x64_0_0
abbrev r2_3 : Rect S5000x8 := Rect.unit (s := S5000x8) ![0, 0] S5000x8.size inb_S5000x8_S5000x8_0_0

def out2_6 (x0 : Vec F S5000x64 .f32) (x1 : Vec F S5000x64 .f32) (x2 : Vec F S5000x64 .f32) (x3 : Vec F S5000x64 .f32) (x4 : Vec F S64x8 .f32) (x5 : Vec F S8x64 .f32) : Vec F S5000x8 .f32 :=
  View.canon [⟨r2_3, k2_pay1 (View.ld x0 r2_0) (View.ld x1 r2_0) (View.ld x3 r2_0) (View.ld x4 r2_1)⟩]

theorem cover2_6 (p0 : Vec F S5000x8 .f32) (y : S5000x8.Idx) :
    ∃ pc ∈ ([⟨r2_3, p0⟩] : List (View.Piece (Elt F) S5000x8 .f32)), y ∈ pc.1.set :=
  View.cover_of_tiled [⟨r2_3, p0⟩] S5000x8.size (by rfl) y

def out2_7 (x0 : Vec F S5000x64 .f32) (x1 : Vec F S5000x64 .f32) (x2 : Vec F S5000x64 .f32) (x3 : Vec F S5000x64 .f32) (x4 : Vec F S64x8 .f32) (x5 : Vec F S8x64 .f32) : Vec F S5000x64 .f32 :=
  View.canon [⟨r2_0, k2_pay2 (View.ld x0 r2_0) (View.ld x1 r2_0) (View.ld x3 r2_0) (View.ld x4 r2_1) (View.ld x5 r2_2) (View.ld x2 r2_0)⟩]

theorem cover2_7 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in

theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x8 .f32) (harg5 : arg5.IsWhole) (arg6 : Memref sig .tc .vmem S8x64 .f32) (harg6 : arg6.IsWhole) (arg7 : Memref sig .tc .vmem S5000x8 .f32) (harg7 : arg7.IsWhole) (arg8 : Memref sig .tc .vmem S5000x64 .f32) (harg8 : arg8.IsWhole)
    (x0 : Vec F S5000x64 .f32) (x1 : Vec F S5000x64 .f32) (x2 : Vec F S5000x64 .f32) (x3 : Vec F S5000x64 .f32) (x4 : Vec F S64x8 .f32) (x5 : Vec F S8x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__edge_score_kernel i arg1 harg1 arg2 harg2 arg3 harg3 arg4 harg4 arg5 harg5 arg6 harg6 arg7 harg7 arg8 harg8) K := by
  simp only [cc2__edge_score_kernel_eq_skeleton]; unfold cc2__edge_score_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Region

end Cert.Kernel.Fr

end
-- ==== Proof.K.R3.lean ====
import proofs.«412297_j88252987998303_2_alg».proof.Proof.Gen.Kernel.Launch
import proofs.«412297_j88252987998303_2_alg».proof.Proof.Gen.Kernel.Skeleton
import proofs.«412297_j88252987998303_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x16 := Rect.unit (s := S10000x16) ![0, 0] S10000x16.size inb_S10000x16_S10000x16_0_0
abbrev r3_1 : Rect S16x192 := Rect.unit (s := S16x192) ![0, 0] S16x192.size inb_S16x192_S16x192_0_0
abbrev r3_2 : Rect S1x192 := Rect.unit (s := S1x192) ![0, 0] S1x192.size inb_S1x192_S1x192_0_0
abbrev r3_3 : Rect S10000x192 := Rect.unit (s := S10000x192) ![0, 0] S10000x192.size inb_S10000x192_S10000x192_0_0

def out3_3 (x0 : Vec F S10000x16 .f32) (x1 : Vec F S16x192 .f32) (x2 : Vec F S1x192 .f32) : Vec F S10000x192 .f32 :=
  View.canon [⟨r3_3, k3_pay1 (View.ld x0 r3_0) (View.ld x1 r3_1) (View.ld x2 r3_2)⟩]

theorem cover3_3 (p0 : Vec F S10000x192 .f32) (y : S10000x192.Idx) :
    ∃ pc ∈ ([⟨r3_3, p0⟩] : List (View.Piece (Elt F) S10000x192 .f32)), y ∈ pc.1.set :=
  View.cover_of_tiled [⟨r3_3, p0⟩] S10000x192.size (by rfl) y

set_option maxHeartbeats 1000000 in

theorem sound_kernel3 (c : Dev nD) (E : Set ℕ) (i : grid3.Coords) (arg1 : Memref sig .tc .vmem S10000x16 .f32) (harg1 : arg1.IsWhole) (arg2 : Memref sig .tc .vmem S16x192 .f32) (harg2 : arg2.IsWhole) (arg3 : Memref sig .tc .vmem S1x192 .f32) (harg3 : arg3.IsWhole) (arg4 : Memref sig .tc .vmem S10000x192 .f32) (harg4 : arg4.IsWhole)
    (x0 : Vec F S10000x16 .f32) (x1 : Vec F S16x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__qkv_kernel i arg1 harg1 arg2 harg2 arg3 harg3 arg4 harg4) K := by
  simp only [cc3__qkv_kernel_eq_skeleton]; unfold cc3__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Region

end Cert.Kernel.Fr

end
-- ==== Proof.K.R4.lean ====
import proofs.«412297_j88252987998303_2_alg».proof.Proof.Gen.Kernel.Launch
import proofs.«412297_j88252987998303_2_alg».proof.Proof.Gen.Kernel.Skeleton
import proofs.«412297_j88252987998303_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x64 := Rect.unit (s := S5000x64) ![0, 0] S5000x64.size inb_S5000x64_S5000x64_0_0
abbrev r4_1 : Rect S64x8 := Rect.unit (s := S64x8) ![0, 0] S64x8.size inb_S64x8_S64x8_0_0
abbrev r4_2 : Rect S8x64 := Rect.unit (s := S8x64) ![0, 0] S8x64.size inb_S8x64_S8x64_0_0
abbrev r4_3 : Rect S5000x8 := Rect.unit (s := S5000x8) ![0, 0] S5000x8.size inb_S5000x8_S5000x8_0_0

def out4_6 (x0 : Vec F S5000x64 .f32) (x1 : Vec F S5000x64 .f32) (x2 : Vec F S5000x64 .f32) (x3 : Vec F S5000x64 .f32) (x4 : Vec F S64x8 .f32) (x5 : Vec F S8x64 .f32) : Vec F S5000x8 .f32 :=
  View.canon [⟨r4_3, k4_pay1 (View.ld x0 r4_0) (View.ld x1 r4_0) (View.ld x3 r4_0) (View.ld x4 r4_1)⟩]

theorem cover4_6 (p0 : Vec F S5000x8 .f32) (y : S5000x8.Idx) :
    ∃ pc ∈ ([⟨r4_3, p0⟩] : List (View.Piece (Elt F) S5000x8 .f32)), y ∈ pc.1.set :=
  View.cover_of_tiled [⟨r4_3, p0⟩] S5000x8.size (by rfl) y

def out4_7 (x0 : Vec F S5000x64 .f32) (x1 : Vec F S5000x64 .f32) (x2 : Vec F S5000x64 .f32) (x3 : Vec F S5000x64 .f32) (x4 : Vec F S64x8 .f32) (x5 : Vec F S8x64 .f32) : Vec F S5000x64 .f32 :=
  View.canon [⟨r4_0, k4_pay2 (View.ld x0 r4_0) (View.ld x1 r4_0) (View.ld x3 r4_0) (View.ld x4 r4_1) (View.ld x5 r4_2) (View.ld x2 r4_0)⟩]

theorem cover4_7 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

set_option maxHeartbeats 1000000 in

theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x8 .f32) (harg5 : arg5.IsWhole) (arg6 : Memref sig .tc .vmem S8x64 .f32) (harg6 : arg6.IsWhole) (arg7 : Memref sig .tc .vmem S5000x8 .f32) (harg7 : arg7.IsWhole) (arg8 : Memref sig .tc .vmem S5000x64 .f32) (harg8 : arg8.IsWhole)
    (x0 : Vec F S5000x64 .f32) (x1 : Vec F S5000x64 .f32) (x2 : Vec F S5000x64 .f32) (x3 : Vec F S5000x64 .f32) (x4 : Vec F S64x8 .f32) (x5 : Vec F S8x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5) ∗ owns (c : Thread nD τ) arg8 fullShare (out4_7 x0 x1 x2 x3 x4 x5)) -∗ K ⟨⟩))
      ⊢ wp frame (wpE (defs₀ (F := F)) Variants.none c none) E (cc4__edge_score_kernel i arg1 harg1 arg2 harg2 arg3 harg3 arg4 harg4 arg5 harg5 arg6 harg6 arg7 harg7 arg8 harg8) K := by
  simp only [cc4__edge_score_kernel_eq_skeleton]; unfold cc4__edge_score_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover4_6 _)
  iexists _; isplitr
  swap; · iexact H7
  ipureintro
  exact View.read_writes_eq_canon _ _ _ (cover4_7 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
    | ⟨7, _⟩ => out4_7 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Region

end Cert.Kernel.Fr

end
-- ==== Proof.K.R5.lean ====
import proofs.«412297_j88252987998303_2_alg».proof.Proof.Gen.Kernel.Launch
import proofs.«412297_j88252987998303_2_alg».proof.Proof.Gen.Kernel.Skeleton
import proofs.«412297_j88252987998303_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x64 := Rect.unit (s := S10000x64) ![0, 0] S10000x64.size inb_S10000x64_S10000x64_0_0
abbrev r5_1 : Rect S64x128 := Rect.unit (s := S64x128) ![0, 0] S64x128.size inb_S64x128_S64x128_0_0
abbrev r5_2 : Rect S1x128 := Rect.unit (s := S1x128) ![0, 0] S1x128.size inb_S1x128_S1x128_0_0
abbrev r5_3 : Rect S128x64 := Rect.unit (s := S128x64) ![0, 0] S128x64.size inb_S128x64_S128x64_0_0
abbrev r5_4 : Rect S1x64 := Rect.unit (s := S1x64) ![0, 0] S1x64.size inb_S1x64_S1x64_0_0

def out5_5 (x0 : Vec F S10000x64 .f32) (x1 : Vec F S64x128 .f32) (x2 : Vec F S1x128 .f32) (x3 : Vec F S128x64 .f32) (x4 : Vec F S1x64 .f32) : Vec F S10000x64 .f32 :=
  View.canon [⟨r5_0, k5_pay1 (View.ld x0 r5_0) (View.ld x1 r5_1) (View.ld x2 r5_2) (View.ld x3 r5_3) (View.ld x4 r5_4)⟩]

theorem cover5_5 (p0 : Vec F S10000x64 .f32) (y : S10000x64.Idx) :
    ∃ pc ∈ ([⟨r5_0, p0⟩] : List (View.Piece (Elt F) S10000x64 .f32)), y ∈ pc.1.set :=
  View.cover_of_tiled [⟨r5_0, p0⟩] S10000x64.size (by rfl) y

set_option maxHeartbeats 1000000 in

theorem sound_kernel5 (c : Dev nD) (E : Set ℕ) (i : grid5.Coords)
    (arg1 : Memref sig .tc .vmem S10000x64 .f32) (harg1 : arg1.IsWhole) (arg2 : Memref sig .tc .vmem S64x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S64x128 .f32) (x2 : Vec F S1x128 .f32) (x3 : Vec F S128x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  show _ ⊢ wp _ _ _ (bodyAt5 t) _
  unfold bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Region5

end Cert.Kernel.Fr

end
-- ==== Proof.K.Run.lean ====
import proofs.«412297_j88252987998303_2_alg».proof.Proof.Gen.Kernel.Regions
import proofs.«412297_j88252987998303_2_alg».proof.Proof.K.R0
import proofs.«412297_j88252987998303_2_alg».proof.Proof.K.R1
import proofs.«412297_j88252987998303_2_alg».proof.Proof.K.R2
import proofs.«412297_j88252987998303_2_alg».proof.Proof.K.R3
import proofs.«412297_j88252987998303_2_alg».proof.Proof.K.R4
import proofs.«412297_j88252987998303_2_alg».proof.Proof.K.R5
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 4096

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_eq (c : Dev nD) (r : Ref sig .tc) : W0 m ρ c (Proc.devRef .tc r) = m ((c : Thread nD τ).loc r) := rfl

abbrev W1 : Dev nD → Valuation τ sig (Elt F) := fun c => StableHlo.after hostOps0 (W0 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

abbrev W3 : Dev nD → Valuation τ sig (Elt F) := fun c => StableHlo.after hostOps1 (W2 m ρ c)

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

abbrev W5 : Dev nD → Valuation τ sig (Elt F) := fun c => StableHlo.after hostOps2 (W4 m ρ c)

theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

abbrev W6 : Dev nD → Valuation τ sig (Elt F) := fun c => StableHlo.after hostOps2_1 (W5 m ρ c)

theorem W6_of (c : Dev nD) (r : Ref sig .tc) (h : r ∉ hostOps2_1_W) :
    W6 m ρ c (Proc.devRef .tc r) = W5 m ρ c (Proc.devRef .tc r) :=
  StableHlo.after_of_writes_sub hostOps2_1 _ hostOps2_1_writes h

abbrev W7 : Dev nD → Valuation τ sig (Elt F) := fun c => StableHlo.after hostOps2_2 (W6 m ρ c)

theorem W7_of (c : Dev nD) (r : Ref sig .tc) (h : r ∉ hostOps2_2_W) :
    W7 m ρ c (Proc.devRef .tc r) = W6 m ρ c (Proc.devRef .tc r) :=
  StableHlo.after_of_writes_sub hostOps2_2 _ hostOps2_2_writes h

abbrev W8 : Dev nD → Valuation τ sig (Elt F) := fun c => StableHlo.after hostOps2_3 (W7 m ρ c)

theorem W8_of (c : Dev nD) (r : Ref sig .tc) (h : r ∉ hostOps2_3_W) :
    W8 m ρ c (Proc.devRef .tc r) = W7 m ρ c (Proc.devRef .tc r) :=
  StableHlo.after_of_writes_sub hostOps2_3 _ hostOps2_3_writes h

abbrev V8 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb

theorem W9_in (c : Dev nD) (w : Fin cfg2.W) (hin : (cfg2.win w).isOut = false) :
    W9 m ρ c (Proc.devRef .tc (Pipeline.arrRef spec2 w)) = W8 m ρ c (Proc.devRef .tc (Pipeline.arrRef spec2 w)) :=
  (W9_arr m ρ c w).trans (((dat2 (V8 m ρ) c).arrAt_in w hin _).trans (A_eq2 (V8 m ρ) c w))

abbrev W10 : Dev nD → Valuation τ sig (Elt F) := fun c => StableHlo.after hostOps3 (W9 m ρ c)

theorem W10_of (c : Dev nD) (r : Ref sig .tc) (h : r ∉ hostOps3_W) :
    W10 m ρ c (Proc.devRef .tc r) = W9 m ρ c (Proc.devRef .tc r) :=
  StableHlo.after_of_writes_sub hostOps3 _ hostOps3_writes h

abbrev V10 : (c : Dev nD) → (b : Ref sig .tc) → Buf (Elt F) ((c : Thread nD τ).loc b) := fun c b => W10 m ρ c b

def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb

theorem W11_in (c : Dev nD) (w : Fin cfg3.W) (hin : (cfg3.win w).isOut = false) :
    W11 m ρ c (Proc.devRef .tc (Pipeline.arrRef spec3 w)) = W10 m ρ c (Proc.devRef .tc (Pipeline.arrRef spec3 w)) :=
  (W11_arr m ρ c w).trans (((dat3 (V10 m ρ) c).arrAt_in w hin _).trans (A_eq3 (V10 m ρ) c w))

abbrev W12 : Dev nD → Valuation τ sig (Elt F) := fun c => StableHlo.after hostOps4 (W11 m ρ c)

theorem W12_of (c : Dev nD) (r : Ref sig .tc) (h : r ∉ hostOps4_W) :
    W12 m ρ c (Proc.devRef .tc r) = W11 m ρ c (Proc.devRef .tc r) :=
  StableHlo.after_of_writes_sub hostOps4 _ hostOps4_writes h

abbrev W13 : Dev nD → Valuation τ sig (Elt F) := fun c => StableHlo.after hostOps4_1 (W12 m ρ c)

theorem W13_of (c : Dev nD) (r : Ref sig .tc) (h : r ∉ hostOps4_1_W) :
    W13 m ρ c (Proc.devRef .tc r) = W12 m ρ c (Proc.devRef .tc r) :=
  StableHlo.after_of_writes_sub hostOps4_1 _ hostOps4_1_writes h

abbrev W14 : Dev nD → Valuation τ sig (Elt F) := fun c => StableHlo.after hostOps4_2 (W13 m ρ c)

theorem W14_of (c : Dev nD) (r : Ref sig .tc) (h : r ∉ hostOps4_2_W) :
    W14 m ρ c (Proc.devRef .tc r) = W13 m ρ c (Proc.devRef .tc r) :=
  StableHlo.after_of_writes_sub hostOps4_2 _ hostOps4_2_writes h

abbrev W15 : Dev nD → Valuation τ sig (Elt F) := fun c => StableHlo.after hostOps4_3 (W14 m ρ c)

theorem W15_of (c : Dev nD) (r : Ref sig .tc) (h : r ∉ hostOps4_3_W) :
    W15 m ρ c (Proc.devRef .tc r) = W14 m ρ c (Proc.devRef .tc r) :=
  StableHlo.after_of_writes_sub hostOps4_3 _ hostOps4_3_writes h

abbrev V15 : (c : Dev nD) → (b : Ref sig .tc) → Buf (Elt F) ((c : Thread nD τ).loc b) := fun c b => W15 m ρ c b

def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb

theorem W16_in (c : Dev nD) (w : Fin cfg4.W) (hin : (cfg4.win w).isOut = false) :
    W16 m ρ c (Proc.devRef .tc (Pipeline.arrRef spec4 w)) = W15 m ρ c (Proc.devRef .tc (Pipeline.arrRef spec4 w)) :=
  (W16_arr m ρ c w).trans (((dat4 (V15 m ρ) c).arrAt_in w hin _).trans (A_eq4 (V15 m ρ) c w))

abbrev W17 : Dev nD → Valuation τ sig (Elt F) := fun c => StableHlo.after hostOps5 (W16 m ρ c)

theorem W17_of (c : Dev nD) (r : Ref sig .tc) (h : r ∉ hostOps5_W) :
    W17 m ρ c (Proc.devRef .tc r) = W16 m ρ c (Proc.devRef .tc r) :=
  StableHlo.after_of_writes_sub hostOps5 _ hostOps5_writes h

abbrev V17 : (c : Dev nD) → (b : Ref sig .tc) → Buf (Elt F) ((c : Thread nD τ).loc b) := fun c b => W17 m ρ c b

def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb

theorem W18_in (c : Dev nD) (w : Fin cfg5.W) (hin : (cfg5.win w).isOut = false) :
    W18 m ρ c (Proc.devRef .tc (Pipeline.arrRef spec5 w)) = W17 m ρ c (Proc.devRef .tc (Pipeline.arrRef spec5 w)) :=
  (W18_arr m ρ c w).trans (((dat5 (V17 m ρ) c).arrAt_in w hin _).trans (A_eq5 (V17 m ρ) c w))

def Kept (r : Ref sig .tc) : Prop :=
  (r ∉ hostOps0_W ∧ r ∉ hostOps1_W ∧ r ∉ hostOps2_W ∧ r ∉ hostOps2_1_W ∧ r ∉ hostOps2_2_W ∧ r ∉ hostOps2_3_W ∧ r ∉ hostOps3_W
    ∧ r ∉ hostOps4_W ∧ r ∉ hostOps4_1_W ∧ r ∉ hostOps4_2_W ∧ r ∉ hostOps4_3_W ∧ r ∉ hostOps5_W)
  ∧ ((∀ w, Pipeline.arrRef spec0 w ≠ r) ∨ ∃ w, (cfg0.win w).isOut = false ∧ Pipeline.arrRef spec0 w = r)
  ∧ ((∀ w, Pipeline.arrRef spec1 w ≠ r) ∨ ∃ w, (cfg1.win w).isOut = false ∧ Pipeline.arrRef spec1 w = r)
  ∧ ((∀ w, Pipeline.arrRef spec2 w ≠ r) ∨ ∃ w, (cfg2.win w).isOut = false ∧ Pipeline.arrRef spec2 w = r)
  ∧ ((∀ w, Pipeline.arrRef spec3 w ≠ r) ∨ ∃ w, (cfg3.win w).isOut = false ∧ Pipeline.arrRef spec3 w = r)
  ∧ ((∀ w, Pipeline.arrRef spec4 w ≠ r) ∨ ∃ w, (cfg4.win w).isOut = false ∧ Pipeline.arrRef spec4 w = r)
  ∧ ((∀ w, Pipeline.arrRef spec5 w ≠ r) ∨ ∃ w, (cfg5.win w).isOut = false ∧ Pipeline.arrRef spec5 w = r)

instance (r : Ref sig .tc) : Decidable (Kept r) := by unfold Kept; infer_instance

theorem W18_kept (c : Dev nD) (r : Ref sig .tc) (h : Kept r) : W18 m ρ c (Proc.devRef .tc r) = m ((c : Thread nD τ).loc r) := by
  obtain ⟨⟨h0, h1, h2, h21, h22, h23, h3, h4, h41, h42, h43, h5⟩, k0, k1, k2, k3, k4, k5⟩ := h
  have e0 : W2 m ρ c (Proc.devRef .tc r) = W1 m ρ c (Proc.devRef .tc r) :=
    k0.elim (W2_of_ne m ρ c r) fun ⟨w, hin, e⟩ => by subst e; exact W2_in m ρ c w hin
  have e1 : W4 m ρ c (Proc.devRef .tc r) = W3 m ρ c (Proc.devRef .tc r) :=
    k1.elim (W4_of_ne m ρ c r) fun ⟨w, hin, e⟩ => by subst e; exact W4_in m ρ c w hin
  have e2 : W9 m ρ c (Proc.devRef .tc r) = W8 m ρ c (Proc.devRef .tc r) :=
    k2.elim (W9_of_ne m ρ c r) fun ⟨w, hin, e⟩ => by subst e; exact W9_in m ρ c w hin
  have e3 : W11 m ρ c (Proc.devRef .tc r) = W10 m ρ c (Proc.devRef .tc r) :=
    k3.elim (W11_of_ne m ρ c r) fun ⟨w, hin, e⟩ => by subst e; exact W11_in m ρ c w hin
  have e4 : W16 m ρ c (Proc.devRef .tc r) = W15 m ρ c (Proc.devRef .tc r) :=
    k4.elim (W16_of_ne m ρ c r) fun ⟨w, hin, e⟩ => by subst e; exact W16_in m ρ c w hin
  have e5 : W18 m ρ c (Proc.devRef .tc r) = W17 m ρ c (Proc.devRef .tc r) :=
    k5.elim (W18_of_ne m ρ c r) fun ⟨w, hin, e⟩ => by subst e; exact W18_in m ρ c w hin
  exact e5.trans <| (W17_of m ρ c r h5).trans <| e4.trans <| (W15_of m ρ c r h43).trans <| (W14_of m ρ c r h42).trans <|
    (W13_of m ρ c r h41).trans <| (W12_of m ρ c r h4).trans <| e3.trans <| (W10_of m ρ c r h3).trans <| e2.trans <|
    (W8_of m ρ c r h23).trans <| (W7_of m ρ c r h22).trans <| (W6_of m ρ c r h21).trans <| (W5_of m ρ c r h2).trans <|
    e1.trans <| (W3_of m ρ c r h1).trans <| e0.trans <| (W1_of m ρ c r h0).trans <| W0_eq m ρ c r

theorem W18_main_arg11 (c : Dev nD) : W18 m ρ c (Proc.devRef .tc main_arg11) = m ((c : Thread nD τ).loc main_arg11) := W18_kept m ρ c _ (by decide)
theorem W18_main_arg12 (c : Dev nD) : W18 m ρ c (Proc.devRef .tc main_arg12) = m ((c : Thread nD τ).loc main_arg12) := W18_kept m ρ c _ (by decide)
theorem W18_main_arg13 (c : Dev nD) : W18 m ρ c (Proc.devRef .tc main_arg13) = m ((c : Thread nD τ).loc main_arg13) := W18_kept m ρ c _ (by decide)
theorem W18_main_arg14 (c : Dev nD) : W18 m ρ c (Proc.devRef .tc main_arg14) = m ((c : Thread nD τ).loc main_arg14) := W18_kept m ρ c _ (by decide)

end Cert.Kernel.Fr

end
-- ==== Proof.K.RunMain.lean ====
import proofs.«412297_j88252987998303_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 4096

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V8 m ρ) c
  | ⟨3, _⟩ => fun c => dat3 (V10 m ρ) c
  | ⟨4, _⟩ => fun c => dat4 (V15 m ρ) c
  | ⟨5, _⟩ => fun c => dat5 (V17 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W18 m ρ c) ∗ ∃ r, prngReg c r)

abbrev tcv (W : Dev nD → Valuation τ sig (Elt F)) : (c : Dev nD) → (b : Ref sig .tc) → Buf (Elt F) ((c : Thread nD τ).loc b) :=
  fun c b => W c b

set_option backward.isDefEq.respectTransparency.types false in
def reg (p : Fin 6) (lf : Pipeline.LaunchFacts (nD := nD) (τ := τ) cfgs p) (W W' : Dev nD → Valuation τ sig (Elt F))
    (hbody : ∀ c, Pipeline.BodyObligationLoose (pdats m ρ p c) defs₀ 𝒱₀ () Set.univ)
    (hq : ∀ c w, (pdats m ρ p c).q w = fullShare) (howed : ∀ c t, (pdats m ρ p c).owed t = 0)
    (hrec : ∀ c t, (pdats m ρ p c).recorded t = Set.univ)
    (hΦ : ∀ c t, (pdats m ρ p c).Φ t = Pipeline.ΦA (cfgs p).spec c)
    (hA : ∀ c w, (pdats m ρ p c).A w = tcv W c (Pipeline.arrRef (cfgs p).spec w))
    (hF : ∀ c w, (pdats m ρ p c).arrAt w (cfgs p).N = tcv W' c (Pipeline.arrRef (cfgs p).spec w))
    (hrest : ∀ c b, (∀ w, Pipeline.arrRef (cfgs p).spec w ≠ b) → tcv W' c b = tcv W c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (tcv W c)
  hentry c := by
    rw [Pipeline.ownSems0_none]
    have hsplit := Pipeline.arrays_of_unscopedBufs (p := p) (pcfgs (F := F)) adm (pdats m ρ) lf.win lf.arr_whole c
      ((pdats m ρ p c).share_full (hq c)) (tcv W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (tcv W c) (tcv W' c) ((pdats m ρ p c).arrAt · (cfgs p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (W2 m ρ) (fun c => (body_obligation0 (V1 m ρ) c).loose) (fun _ _ => rfl) (fun _ _ => rfl)
      (fun _ _ => rfl) (fun _ _ => rfl) (fun _ _ => rfl) (fun c w => (W2_arr m ρ c w).symm) (W2_of_ne m ρ)),
    .host (hseg hostOps1 hostOps1_sub hostOps1_fresh (W2 m ρ)),
    .region (reg m ρ 1 launch1 (W3 m ρ) (W4 m ρ) (fun c => (body_obligation1 (V3 m ρ) c).loose) (fun _ _ => rfl) (fun _ _ => rfl)
      (fun _ _ => rfl) (fun _ _ => rfl) (fun _ _ => rfl) (fun c w => (W4_arr m ρ c w).symm) (W4_of_ne m ρ)),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .region (reg m ρ 2 launch2 (W8 m ρ) (W9 m ρ) (fun c => (body_obligation2 (V8 m ρ) c).loose) (fun _ _ => rfl) (fun _ _ => rfl)
      (fun _ _ => rfl) (fun _ _ => rfl) (fun _ _ => rfl) (fun c w => (W9_arr m ρ c w).symm) (W9_of_ne m ρ)),
    .host (hseg hostOps3 hostOps3_sub hostOps3_fresh (W9 m ρ)),
    .region (reg m ρ 3 launch3 (W10 m ρ) (W11 m ρ) (fun c => (body_obligation3 (V10 m ρ) c).loose) (fun _ _ => rfl) (fun _ _ => rfl)
      (fun _ _ => rfl) (fun _ _ => rfl) (fun _ _ => rfl) (fun c w => (W11_arr m ρ c w).symm) (W11_of_ne m ρ)),
    .host (hseg hostOps4 hostOps4_sub hostOps4_fresh (W11 m ρ)),
    .host (hseg hostOps4_1 hostOps4_1_sub hostOps4_1_fresh (W12 m ρ)),
    .host (hseg hostOps4_2 hostOps4_2_sub hostOps4_2_fresh (W13 m ρ)),
    .host (hseg hostOps4_3 hostOps4_3_sub hostOps4_3_fresh (W14 m ρ)),
    .region (reg m ρ 4 launch4 (W15 m ρ) (W16 m ρ) (fun c => (body_obligation4 (V15 m ρ) c).loose) (fun _ _ => rfl) (fun _ _ => rfl)
      (fun _ _ => rfl) (fun _ _ => rfl) (fun _ _ => rfl) (fun c w => (W16_arr m ρ c w).symm) (W16_of_ne m ρ)),
    .host (hseg hostOps5 hostOps5_sub hostOps5_fresh (W16 m ρ)),
    .region (reg m ρ 5 launch5 (W17 m ρ) (W18 m ρ) (fun c => (body_obligation5 (V17 m ρ) c).loose) (fun _ _ => rfl) (fun _ _ => rfl)
      (fun _ _ => rfl) (fun _ _ => rfl) (fun _ _ => rfl) (fun c w => (W18_arr m ρ c w).symm) (W18_of_ne m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

theorem kept {r : PUnit × MemSt nD τ sig (Elt F)} (h : ∀ c : Dev nD, ∀ b ∈ Pipeline.ucRefs τ sig, r.2.mem (((c : Thread nD τ)).1, b) = W18 m ρ c b)
    (c : Dev nD) (a : Ref sig .tc) (ha : Kept a) (hs : ¬ (Proc.devRef .tc a : DevRef τ sig).isScoped) :
    r.2.mem ((c.tc : Thread nD τ).loc a) = m ((c.tc : Thread nD τ).loc a) :=
  (h c _ (mem_uc a hs)).trans (W18_kept m ρ c a ha)

omit m ρ in
theorem args15 {P : Ref sig .tc → Prop} (h : ∀ a, Kept a → ¬ (Proc.devRef .tc a : DevRef τ sig).isScoped → P a) :
    P main_arg0 ∧ P main_arg1 ∧ P main_arg2 ∧ P main_arg3 ∧ P main_arg4 ∧ P main_arg5 ∧ P main_arg6 ∧ P main_arg7 ∧ P main_arg8
      ∧ P main_arg9 ∧ P main_arg10 ∧ P main_arg11 ∧ P main_arg12 ∧ P main_arg13 ∧ P main_arg14 :=
  ⟨h _ (by decide) (by decide), h _ (by decide) (by decide), h _ (by decide) (by decide), h _ (by decide) (by decide),
    h _ (by decide) (by decide), h _ (by decide) (by decide), h _ (by decide) (by decide), h _ (by decide) (by decide),
    h _ (by decide) (by decide), h _ (by decide) (by decide), h _ (by decide) (by decide), h _ (by decide) (by decide),
    h _ (by decide) (by decide), h _ (by decide) (by decide), h _ (by decide) (by decide)⟩

end Cert.Kernel.Fr

end
-- ==== Proof.KI.R0.lean ====
import proofs.«412297_j88252987998303_2_alg».proof.Proof.Gen.KernelIdeal.Launch
import proofs.«412297_j88252987998303_2_alg».proof.Proof.Gen.KernelIdeal.Skeleton
import proofs.«412297_j88252987998303_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S20000x16 := Rect.unit (s := S20000x16) ![0, 0] S20000x16.size inb_S20000x16_S20000x16_0_0
abbrev r0_1 : Rect S16x64 := Rect.unit (s := S16x64) ![0, 0] S16x64.size inb_S16x64_S16x64_0_0
abbrev r0_2 : Rect S1x64 := Rect.unit (s := S1x64) ![0, 0] S1x64.size inb_S1x64_S1x64_0_0
abbrev r0_3 : Rect S20000x64 := Rect.unit (s := S20000x64) ![0, 0] S20000x64.size inb_S20000x64_S20000x64_0_0

def out0_3 (x0 : Vec F S20000x16 .f32) (x1 : Vec F S16x64 .f32) (x2 : Vec F S1x64 .f32) : Vec F S20000x64 .f32 :=
  View.canon [⟨r0_3, k0_pay1 (View.ld x0 r0_0) (View.ld x1 r0_1) (View.ld x2 r0_2)⟩]

theorem cover0_3 (p0 : Vec F S20000x64 .f32) (y : S20000x64.Idx) :
    ∃ pc ∈ ([⟨r0_3, p0⟩] : List (View.Piece (Elt F) S20000x64 .f32)), y ∈ pc.1.set :=
  View.cover_of_tiled [⟨r0_3, p0⟩] S20000x64.size (by rfl) y

set_option maxHeartbeats 1000000 in

theorem sound_kernel0 (c : Dev nD) (E : Set ℕ) (i : grid0.Coords) (arg1 : Memref sig .tc .vmem S20000x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S20000x64 .f32) (harg4 : arg4.IsWhole)
    (x0 : Vec F S20000x16 .f32) (x1 : Vec F S16x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__edge_proj_kernel i arg1 harg1 arg2 harg2 arg3 harg3 arg4 harg4) K := by
  simp only [cc0__edge_proj_kernel_eq_skeleton]; unfold cc0__edge_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Regions

end Cert.KernelIdeal.Fr
-- ==== Proof.KI.R1.lean ====
import proofs.«412297_j88252987998303_2_alg».proof.Proof.Gen.KernelIdeal.Launch
import proofs.«412297_j88252987998303_2_alg».proof.Proof.Gen.KernelIdeal.Skeleton
import proofs.«412297_j88252987998303_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x16 := Rect.unit (s := S10000x16) ![0, 0] S10000x16.size inb_S10000x16_S10000x16_0_0
abbrev r1_1 : Rect S16x192 := Rect.unit (s := S16x192) ![0, 0] S16x192.size inb_S16x192_S16x192_0_0
abbrev r1_2 : Rect S1x192 := Rect.unit (s := S1x192) ![0, 0] S1x192.size inb_S1x192_S1x192_0_0
abbrev r1_3 : Rect S10000x192 := Rect.unit (s := S10000x192) ![0, 0] S10000x192.size inb_S10000x192_S10000x192_0_0

def out1_3 (x0 : Vec F S10000x16 .f32) (x1 : Vec F S16x192 .f32) (x2 : Vec F S1x192 .f32) : Vec F S10000x192 .f32 :=
  View.canon [⟨r1_3, k1_pay1 (View.ld x0 r1_0) (View.ld x1 r1_1) (View.ld x2 r1_2)⟩]

theorem cover1_3 (p0 : Vec F S10000x192 .f32) (y : S10000x192.Idx) :
    ∃ pc ∈ ([⟨r1_3, p0⟩] : List (View.Piece (Elt F) S10000x192 .f32)), y ∈ pc.1.set :=
  View.cover_of_tiled [⟨r1_3, p0⟩] S10000x192.size (by rfl) y

set_option maxHeartbeats 1000000 in

theorem sound_kernel1 (c : Dev nD) (E : Set ℕ) (i : grid1.Coords) (arg1 : Memref sig .tc .vmem S10000x16 .f32) (harg1 : arg1.IsWhole) (arg2 : Memref sig .tc .vmem S16x192 .f32) (harg2 : arg2.IsWhole) (arg3 : Memref sig .tc .vmem S1x192 .f32) (harg3 : arg3.IsWhole) (arg4 : Memref sig .tc .vmem S10000x192 .f32) (harg4 : arg4.IsWhole)
    (x0 : Vec F S10000x16 .f32) (x1 : Vec F S16x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__qkv_kernel i arg1 harg1 arg2 harg2 arg3 harg3 arg4 harg4) K := by
  simp only [cc1__qkv_kernel_eq_skeleton]; unfold cc1__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Region

end Cert.KernelIdeal.Fr

end
-- ==== Proof.KI.R2.lean ====
import proofs.«412297_j88252987998303_2_alg».proof.Proof.Gen.KernelIdeal.Launch
import proofs.«412297_j88252987998303_2_alg».proof.Proof.Gen.KernelIdeal.Skeleton
import proofs.«412297_j88252987998303_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64x8 := Rect.unit (s := S64x8) ![0, 0] S64x8.size inb_S64x8_S64x8_0_0
abbrev r2_2 : Rect S8x64 := Rect.unit (s := S8x64) ![0, 0] S8x64.size inb_S8x64_S8x64_0_0
abbrev r2_3 : Rect S5000x8 := Rect.unit (s := S5000x8) ![0, 0] S5000x8.size inb_S5000x8_S5000x8_0_0

def out2_6 (x0 : Vec F S5000x64 .f32) (x1 : Vec F S5000x64 .f32) (x2 : Vec F S5000x64 .f32) (x3 : Vec F S5000x64 .f32) (x4 : Vec F S64x8 .f32) (x5 : Vec F S8x64 .f32) : Vec F S5000x8 .f32 :=
  View.canon [⟨r2_3, k2_pay1 (View.ld x0 r2_0) (View.ld x1 r2_0) (View.ld x3 r2_0) (View.ld x4 r2_1)⟩]

theorem cover2_6 (p0 : Vec F S5000x8 .f32) (y : S5000x8.Idx) :
    ∃ pc ∈ ([⟨r2_3, p0⟩] : List (View.Piece (Elt F) S5000x8 .f32)), y ∈ pc.1.set :=
  View.cover_of_tiled [⟨r2_3, p0⟩] S5000x8.size (by rfl) y

def out2_7 (x0 : Vec F S5000x64 .f32) (x1 : Vec F S5000x64 .f32) (x2 : Vec F S5000x64 .f32) (x3 : Vec F S5000x64 .f32) (x4 : Vec F S64x8 .f32) (x5 : Vec F S8x64 .f32) : Vec F S5000x64 .f32 :=
  View.canon [⟨r2_0, k2_pay2 (View.ld x0 r2_0) (View.ld x1 r2_0) (View.ld x3 r2_0) (View.ld x4 r2_1) (View.ld x5 r2_2) (View.ld x2 r2_0)⟩]

theorem cover2_7 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in

theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x8 .f32) (harg5 : arg5.IsWhole) (arg6 : Memref sig .tc .vmem S8x64 .f32) (harg6 : arg6.IsWhole) (arg7 : Memref sig .tc .vmem S5000x8 .f32) (harg7 : arg7.IsWhole) (arg8 : Memref sig .tc .vmem S5000x64 .f32) (harg8 : arg8.IsWhole)
    (x0 : Vec F S5000x64 .f32) (x1 : Vec F S5000x64 .f32) (x2 : Vec F S5000x64 .f32) (x3 : Vec F S5000x64 .f32) (x4 : Vec F S64x8 .f32) (x5 : Vec F S8x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__edge_score_kernel i arg1 harg1 arg2 harg2 arg3 harg3 arg4 harg4 arg5 harg5 arg6 harg6 arg7 harg7 arg8 harg8) K := by
  simp only [cc2__edge_score_kernel_eq_skeleton]; unfold cc2__edge_score_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Region

end Cert.KernelIdeal.Fr

end
-- ==== Proof.KI.R3.lean ====
import proofs.«412297_j88252987998303_2_alg».proof.Proof.Gen.KernelIdeal.Launch
import proofs.«412297_j88252987998303_2_alg».proof.Proof.Gen.KernelIdeal.Skeleton
import proofs.«412297_j88252987998303_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x16 := Rect.unit (s := S10000x16) ![0, 0] S10000x16.size inb_S10000x16_S10000x16_0_0
abbrev r3_1 : Rect S16x192 := Rect.unit (s := S16x192) ![0, 0] S16x192.size inb_S16x192_S16x192_0_0
abbrev r3_2 : Rect S1x192 := Rect.unit (s := S1x192) ![0, 0] S1x192.size inb_S1x192_S1x192_0_0
abbrev r3_3 : Rect S10000x192 := Rect.unit (s := S10000x192) ![0, 0] S10000x192.size inb_S10000x192_S10000x192_0_0

def out3_3 (x0 : Vec F S10000x16 .f32) (x1 : Vec F S16x192 .f32) (x2 : Vec F S1x192 .f32) : Vec F S10000x192 .f32 :=
  View.canon [⟨r3_3, k3_pay1 (View.ld x0 r3_0) (View.ld x1 r3_1) (View.ld x2 r3_2)⟩]

theorem cover3_3 (p0 : Vec F S10000x192 .f32) (y : S10000x192.Idx) :
    ∃ pc ∈ ([⟨r3_3, p0⟩] : List (View.Piece (Elt F) S10000x192 .f32)), y ∈ pc.1.set :=
  View.cover_of_tiled [⟨r3_3, p0⟩] S10000x192.size (by rfl) y

set_option maxHeartbeats 1000000 in

theorem sound_kernel3 (c : Dev nD) (E : Set ℕ) (i : grid3.Coords) (arg1 : Memref sig .tc .vmem S10000x16 .f32) (harg1 : arg1.IsWhole) (arg2 : Memref sig .tc .vmem S16x192 .f32) (harg2 : arg2.IsWhole) (arg3 : Memref sig .tc .vmem S1x192 .f32) (harg3 : arg3.IsWhole) (arg4 : Memref sig .tc .vmem S10000x192 .f32) (harg4 : arg4.IsWhole)
    (x0 : Vec F S10000x16 .f32) (x1 : Vec F S16x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__qkv_kernel i arg1 harg1 arg2 harg2 arg3 harg3 arg4 harg4) K := by
  simp only [cc3__qkv_kernel_eq_skeleton]; unfold cc3__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Region

end Cert.KernelIdeal.Fr

end
-- ==== Proof.KI.R4.lean ====
import proofs.«412297_j88252987998303_2_alg».proof.Proof.Gen.KernelIdeal.Launch
import proofs.«412297_j88252987998303_2_alg».proof.Proof.Gen.KernelIdeal.Skeleton
import proofs.«412297_j88252987998303_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x64 := Rect.unit (s := S5000x64) ![0, 0] S5000x64.size inb_S5000x64_S5000x64_0_0
abbrev r4_1 : Rect S64x8 := Rect.unit (s := S64x8) ![0, 0] S64x8.size inb_S64x8_S64x8_0_0
abbrev r4_2 : Rect S8x64 := Rect.unit (s := S8x64) ![0, 0] S8x64.size inb_S8x64_S8x64_0_0
abbrev r4_3 : Rect S5000x8 := Rect.unit (s := S5000x8) ![0, 0] S5000x8.size inb_S5000x8_S5000x8_0_0

def out4_6 (x0 : Vec F S5000x64 .f32) (x1 : Vec F S5000x64 .f32) (x2 : Vec F S5000x64 .f32) (x3 : Vec F S5000x64 .f32) (x4 : Vec F S64x8 .f32) (x5 : Vec F S8x64 .f32) : Vec F S5000x8 .f32 :=
  View.canon [⟨r4_3, k4_pay1 (View.ld x0 r4_0) (View.ld x1 r4_0) (View.ld x3 r4_0) (View.ld x4 r4_1)⟩]

theorem cover4_6 (p0 : Vec F S5000x8 .f32) (y : S5000x8.Idx) :
    ∃ pc ∈ ([⟨r4_3, p0⟩] : List (View.Piece (Elt F) S5000x8 .f32)), y ∈ pc.1.set :=
  View.cover_of_tiled [⟨r4_3, p0⟩] S5000x8.size (by rfl) y

def out4_7 (x0 : Vec F S5000x64 .f32) (x1 : Vec F S5000x64 .f32) (x2 : Vec F S5000x64 .f32) (x3 : Vec F S5000x64 .f32) (x4 : Vec F S64x8 .f32) (x5 : Vec F S8x64 .f32) : Vec F S5000x64 .f32 :=
  View.canon [⟨r4_0, k4_pay2 (View.ld x0 r4_0) (View.ld x1 r4_0) (View.ld x3 r4_0) (View.ld x4 r4_1) (View.ld x5 r4_2) (View.ld x2 r4_0)⟩]

theorem cover4_7 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

set_option maxHeartbeats 1000000 in

theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S64x8 .f32) (harg5 : arg5.IsWhole) (arg6 : Memref sig .tc .vmem S8x64 .f32) (harg6 : arg6.IsWhole) (arg7 : Memref sig .tc .vmem S5000x8 .f32) (harg7 : arg7.IsWhole) (arg8 : Memref sig .tc .vmem S5000x64 .f32) (harg8 : arg8.IsWhole)
    (x0 : Vec F S5000x64 .f32) (x1 : Vec F S5000x64 .f32) (x2 : Vec F S5000x64 .f32) (x3 : Vec F S5000x64 .f32) (x4 : Vec F S64x8 .f32) (x5 : Vec F S8x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5) ∗ owns (c : Thread nD τ) arg8 fullShare (out4_7 x0 x1 x2 x3 x4 x5)) -∗ K ⟨⟩))
      ⊢ wp frame (wpE (defs₀ (F := F)) Variants.none c none) E (cc4__edge_score_kernel i arg1 harg1 arg2 harg2 arg3 harg3 arg4 harg4 arg5 harg5 arg6 harg6 arg7 harg7 arg8 harg8) K := by
  simp only [cc4__edge_score_kernel_eq_skeleton]; unfold cc4__edge_score_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover4_6 _)
  iexists _; isplitr
  swap; · iexact H7
  ipureintro
  exact View.read_writes_eq_canon _ _ _ (cover4_7 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
    | ⟨7, _⟩ => out4_7 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Region

end Cert.KernelIdeal.Fr

end
-- ==== Proof.KI.R5.lean ====
import proofs.«412297_j88252987998303_2_alg».proof.Proof.Gen.KernelIdeal.Launch
import proofs.«412297_j88252987998303_2_alg».proof.Proof.Gen.KernelIdeal.Skeleton
import proofs.«412297_j88252987998303_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x64 := Rect.unit (s := S10000x64) ![0, 0] S10000x64.size inb_S10000x64_S10000x64_0_0
abbrev r5_1 : Rect S64x128 := Rect.unit (s := S64x128) ![0, 0] S64x128.size inb_S64x128_S64x128_0_0
abbrev r5_2 : Rect S1x128 := Rect.unit (s := S1x128) ![0, 0] S1x128.size inb_S1x128_S1x128_0_0
abbrev r5_3 : Rect S128x64 := Rect.unit (s := S128x64) ![0, 0] S128x64.size inb_S128x64_S128x64_0_0
abbrev r5_4 : Rect S1x64 := Rect.unit (s := S1x64) ![0, 0] S1x64.size inb_S1x64_S1x64_0_0

def out5_5 (x0 : Vec F S10000x64 .f32) (x1 : Vec F S64x128 .f32) (x2 : Vec F S1x128 .f32) (x3 : Vec F S128x64 .f32) (x4 : Vec F S1x64 .f32) : Vec F S10000x64 .f32 :=
  View.canon [⟨r5_0, k5_pay1 (View.ld x0 r5_0) (View.ld x1 r5_1) (View.ld x2 r5_2) (View.ld x3 r5_3) (View.ld x4 r5_4)⟩]

theorem cover5_5 (p0 : Vec F S10000x64 .f32) (y : S10000x64.Idx) :
    ∃ pc ∈ ([⟨r5_0, p0⟩] : List (View.Piece (Elt F) S10000x64 .f32)), y ∈ pc.1.set :=
  View.cover_of_tiled [⟨r5_0, p0⟩] S10000x64.size (by rfl) y

set_option maxHeartbeats 1000000 in

theorem sound_kernel5 (c : Dev nD) (E : Set ℕ) (i : grid5.Coords)
    (arg1 : Memref sig .tc .vmem S10000x64 .f32) (harg1 : arg1.IsWhole) (arg2 : Memref sig .tc .vmem S64x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S64x128 .f32) (x2 : Vec F S1x128 .f32) (x3 : Vec F S128x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  show _ ⊢ wp _ _ _ (bodyAt5 t) _
  unfold bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Region5

end Cert.KernelIdeal.Fr

end
-- ==== Proof.KI.Run.lean ====
import proofs.«412297_j88252987998303_2_alg».proof.Proof.Gen.KernelIdeal.Regions
import proofs.«412297_j88252987998303_2_alg».proof.Proof.KI.R0
import proofs.«412297_j88252987998303_2_alg».proof.Proof.KI.R1
import proofs.«412297_j88252987998303_2_alg».proof.Proof.KI.R2
import proofs.«412297_j88252987998303_2_alg».proof.Proof.KI.R3
import proofs.«412297_j88252987998303_2_alg».proof.Proof.KI.R4
import proofs.«412297_j88252987998303_2_alg».proof.Proof.KI.R5
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 4096

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_eq (c : Dev nD) (r : Ref sig .tc) : W0 m ρ c (Proc.devRef .tc r) = m ((c : Thread nD τ).loc r) := rfl

abbrev W1 : Dev nD → Valuation τ sig (Elt F) := fun c => StableHlo.after hostOps0 (W0 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

abbrev W3 : Dev nD → Valuation τ sig (Elt F) := fun c => StableHlo.after hostOps1 (W2 m ρ c)

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

abbrev W5 : Dev nD → Valuation τ sig (Elt F) := fun c => StableHlo.after hostOps2 (W4 m ρ c)

theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

abbrev W6 : Dev nD → Valuation τ sig (Elt F) := fun c => StableHlo.after hostOps2_1 (W5 m ρ c)

theorem W6_of (c : Dev nD) (r : Ref sig .tc) (h : r ∉ hostOps2_1_W) :
    W6 m ρ c (Proc.devRef .tc r) = W5 m ρ c (Proc.devRef .tc r) :=
  StableHlo.after_of_writes_sub hostOps2_1 _ hostOps2_1_writes h

abbrev W7 : Dev nD → Valuation τ sig (Elt F) := fun c => StableHlo.after hostOps2_2 (W6 m ρ c)

theorem W7_of (c : Dev nD) (r : Ref sig .tc) (h : r ∉ hostOps2_2_W) :
    W7 m ρ c (Proc.devRef .tc r) = W6 m ρ c (Proc.devRef .tc r) :=
  StableHlo.after_of_writes_sub hostOps2_2 _ hostOps2_2_writes h

abbrev W8 : Dev nD → Valuation τ sig (Elt F) := fun c => StableHlo.after hostOps2_3 (W7 m ρ c)

theorem W8_of (c : Dev nD) (r : Ref sig .tc) (h : r ∉ hostOps2_3_W) :
    W8 m ρ c (Proc.devRef .tc r) = W7 m ρ c (Proc.devRef .tc r) :=
  StableHlo.after_of_writes_sub hostOps2_3 _ hostOps2_3_writes h

abbrev V8 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb

theorem W9_in (c : Dev nD) (w : Fin cfg2.W) (hin : (cfg2.win w).isOut = false) :
    W9 m ρ c (Proc.devRef .tc (Pipeline.arrRef spec2 w)) = W8 m ρ c (Proc.devRef .tc (Pipeline.arrRef spec2 w)) :=
  (W9_arr m ρ c w).trans (((dat2 (V8 m ρ) c).arrAt_in w hin _).trans (A_eq2 (V8 m ρ) c w))

abbrev W10 : Dev nD → Valuation τ sig (Elt F) := fun c => StableHlo.after hostOps3 (W9 m ρ c)

theorem W10_of (c : Dev nD) (r : Ref sig .tc) (h : r ∉ hostOps3_W) :
    W10 m ρ c (Proc.devRef .tc r) = W9 m ρ c (Proc.devRef .tc r) :=
  StableHlo.after_of_writes_sub hostOps3 _ hostOps3_writes h

abbrev V10 : (c : Dev nD) → (b : Ref sig .tc) → Buf (Elt F) ((c : Thread nD τ).loc b) := fun c b => W10 m ρ c b

def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb

theorem W11_in (c : Dev nD) (w : Fin cfg3.W) (hin : (cfg3.win w).isOut = false) :
    W11 m ρ c (Proc.devRef .tc (Pipeline.arrRef spec3 w)) = W10 m ρ c (Proc.devRef .tc (Pipeline.arrRef spec3 w)) :=
  (W11_arr m ρ c w).trans (((dat3 (V10 m ρ) c).arrAt_in w hin _).trans (A_eq3 (V10 m ρ) c w))

abbrev W12 : Dev nD → Valuation τ sig (Elt F) := fun c => StableHlo.after hostOps4 (W11 m ρ c)

theorem W12_of (c : Dev nD) (r : Ref sig .tc) (h : r ∉ hostOps4_W) :
    W12 m ρ c (Proc.devRef .tc r) = W11 m ρ c (Proc.devRef .tc r) :=
  StableHlo.after_of_writes_sub hostOps4 _ hostOps4_writes h

abbrev W13 : Dev nD → Valuation τ sig (Elt F) := fun c => StableHlo.after hostOps4_1 (W12 m ρ c)

theorem W13_of (c : Dev nD) (r : Ref sig .tc) (h : r ∉ hostOps4_1_W) :
    W13 m ρ c (Proc.devRef .tc r) = W12 m ρ c (Proc.devRef .tc r) :=
  StableHlo.after_of_writes_sub hostOps4_1 _ hostOps4_1_writes h

abbrev W14 : Dev nD → Valuation τ sig (Elt F) := fun c => StableHlo.after hostOps4_2 (W13 m ρ c)

theorem W14_of (c : Dev nD) (r : Ref sig .tc) (h : r ∉ hostOps4_2_W) :
    W14 m ρ c (Proc.devRef .tc r) = W13 m ρ c (Proc.devRef .tc r) :=
  StableHlo.after_of_writes_sub hostOps4_2 _ hostOps4_2_writes h

abbrev W15 : Dev nD → Valuation τ sig (Elt F) := fun c => StableHlo.after hostOps4_3 (W14 m ρ c)

theorem W15_of (c : Dev nD) (r : Ref sig .tc) (h : r ∉ hostOps4_3_W) :
    W15 m ρ c (Proc.devRef .tc r) = W14 m ρ c (Proc.devRef .tc r) :=
  StableHlo.after_of_writes_sub hostOps4_3 _ hostOps4_3_writes h

abbrev V15 : (c : Dev nD) → (b : Ref sig .tc) → Buf (Elt F) ((c : Thread nD τ).loc b) := fun c b => W15 m ρ c b

def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb

theorem W16_in (c : Dev nD) (w : Fin cfg4.W) (hin : (cfg4.win w).isOut = false) :
    W16 m ρ c (Proc.devRef .tc (Pipeline.arrRef spec4 w)) = W15 m ρ c (Proc.devRef .tc (Pipeline.arrRef spec4 w)) :=
  (W16_arr m ρ c w).trans (((dat4 (V15 m ρ) c).arrAt_in w hin _).trans (A_eq4 (V15 m ρ) c w))

abbrev W17 : Dev nD → Valuation τ sig (Elt F) := fun c => StableHlo.after hostOps5 (W16 m ρ c)

theorem W17_of (c : Dev nD) (r : Ref sig .tc) (h : r ∉ hostOps5_W) :
    W17 m ρ c (Proc.devRef .tc r) = W16 m ρ c (Proc.devRef .tc r) :=
  StableHlo.after_of_writes_sub hostOps5 _ hostOps5_writes h

abbrev V17 : (c : Dev nD) → (b : Ref sig .tc) → Buf (Elt F) ((c : Thread nD τ).loc b) := fun c b => W17 m ρ c b

def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb

theorem W18_in (c : Dev nD) (w : Fin cfg5.W) (hin : (cfg5.win w).isOut = false) :
    W18 m ρ c (Proc.devRef .tc (Pipeline.arrRef spec5 w)) = W17 m ρ c (Proc.devRef .tc (Pipeline.arrRef spec5 w)) :=
  (W18_arr m ρ c w).trans (((dat5 (V17 m ρ) c).arrAt_in w hin _).trans (A_eq5 (V17 m ρ) c w))

def Kept (r : Ref sig .tc) : Prop :=
  (r ∉ hostOps0_W ∧ r ∉ hostOps1_W ∧ r ∉ hostOps2_W ∧ r ∉ hostOps2_1_W ∧ r ∉ hostOps2_2_W ∧ r ∉ hostOps2_3_W ∧ r ∉ hostOps3_W
    ∧ r ∉ hostOps4_W ∧ r ∉ hostOps4_1_W ∧ r ∉ hostOps4_2_W ∧ r ∉ hostOps4_3_W ∧ r ∉ hostOps5_W)
  ∧ ((∀ w, Pipeline.arrRef spec0 w ≠ r) ∨ ∃ w, (cfg0.win w).isOut = false ∧ Pipeline.arrRef spec0 w = r)
  ∧ ((∀ w, Pipeline.arrRef spec1 w ≠ r) ∨ ∃ w, (cfg1.win w).isOut = false ∧ Pipeline.arrRef spec1 w = r)
  ∧ ((∀ w, Pipeline.arrRef spec2 w ≠ r) ∨ ∃ w, (cfg2.win w).isOut = false ∧ Pipeline.arrRef spec2 w = r)
  ∧ ((∀ w, Pipeline.arrRef spec3 w ≠ r) ∨ ∃ w, (cfg3.win w).isOut = false ∧ Pipeline.arrRef spec3 w = r)
  ∧ ((∀ w, Pipeline.arrRef spec4 w ≠ r) ∨ ∃ w, (cfg4.win w).isOut = false ∧ Pipeline.arrRef spec4 w = r)
  ∧ ((∀ w, Pipeline.arrRef spec5 w ≠ r) ∨ ∃ w, (cfg5.win w).isOut = false ∧ Pipeline.arrRef spec5 w = r)

instance (r : Ref sig .tc) : Decidable (Kept r) := by unfold Kept; infer_instance

theorem W18_kept (c : Dev nD) (r : Ref sig .tc) (h : Kept r) : W18 m ρ c (Proc.devRef .tc r) = m ((c : Thread nD τ).loc r) := by
  obtain ⟨⟨h0, h1, h2, h21, h22, h23, h3, h4, h41, h42, h43, h5⟩, k0, k1, k2, k3, k4, k5⟩ := h
  have e0 : W2 m ρ c (Proc.devRef .tc r) = W1 m ρ c (Proc.devRef .tc r) :=
    k0.elim (W2_of_ne m ρ c r) fun ⟨w, hin, e⟩ => by subst e; exact W2_in m ρ c w hin
  have e1 : W4 m ρ c (Proc.devRef .tc r) = W3 m ρ c (Proc.devRef .tc r) :=
    k1.elim (W4_of_ne m ρ c r) fun ⟨w, hin, e⟩ => by subst e; exact W4_in m ρ c w hin
  have e2 : W9 m ρ c (Proc.devRef .tc r) = W8 m ρ c (Proc.devRef .tc r) :=
    k2.elim (W9_of_ne m ρ c r) fun ⟨w, hin, e⟩ => by subst e; exact W9_in m ρ c w hin
  have e3 : W11 m ρ c (Proc.devRef .tc r) = W10 m ρ c (Proc.devRef .tc r) :=
    k3.elim (W11_of_ne m ρ c r) fun ⟨w, hin, e⟩ => by subst e; exact W11_in m ρ c w hin
  have e4 : W16 m ρ c (Proc.devRef .tc r) = W15 m ρ c (Proc.devRef .tc r) :=
    k4.elim (W16_of_ne m ρ c r) fun ⟨w, hin, e⟩ => by subst e; exact W16_in m ρ c w hin
  have e5 : W18 m ρ c (Proc.devRef .tc r) = W17 m ρ c (Proc.devRef .tc r) :=
    k5.elim (W18_of_ne m ρ c r) fun ⟨w, hin, e⟩ => by subst e; exact W18_in m ρ c w hin
  exact e5.trans <| (W17_of m ρ c r h5).trans <| e4.trans <| (W15_of m ρ c r h43).trans <| (W14_of m ρ c r h42).trans <|
    (W13_of m ρ c r h41).trans <| (W12_of m ρ c r h4).trans <| e3.trans <| (W10_of m ρ c r h3).trans <| e2.trans <|
    (W8_of m ρ c r h23).trans <| (W7_of m ρ c r h22).trans <| (W6_of m ρ c r h21).trans <| (W5_of m ρ c r h2).trans <|
    e1.trans <| (W3_of m ρ c r h1).trans <| e0.trans <| (W1_of m ρ c r h0).trans <| W0_eq m ρ c r

theorem W18_main_arg11 (c : Dev nD) : W18 m ρ c (Proc.devRef .tc main_arg11) = m ((c : Thread nD τ).loc main_arg11) := W18_kept m ρ c _ (by decide)
theorem W18_main_arg12 (c : Dev nD) : W18 m ρ c (Proc.devRef .tc main_arg12) = m ((c : Thread nD τ).loc main_arg12) := W18_kept m ρ c _ (by decide)
theorem W18_main_arg13 (c : Dev nD) : W18 m ρ c (Proc.devRef .tc main_arg13) = m ((c : Thread nD τ).loc main_arg13) := W18_kept m ρ c _ (by decide)
theorem W18_main_arg14 (c : Dev nD) : W18 m ρ c (Proc.devRef .tc main_arg14) = m ((c : Thread nD τ).loc main_arg14) := W18_kept m ρ c _ (by decide)

end Cert.KernelIdeal.Fr

end
-- ==== Proof.KI.RunMain.lean ====
import proofs.«412297_j88252987998303_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 4096

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V8 m ρ) c
  | ⟨3, _⟩ => fun c => dat3 (V10 m ρ) c
  | ⟨4, _⟩ => fun c => dat4 (V15 m ρ) c
  | ⟨5, _⟩ => fun c => dat5 (V17 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W18 m ρ c) ∗ ∃ r, prngReg c r)

abbrev tcv (W : Dev nD → Valuation τ sig (Elt F)) : (c : Dev nD) → (b : Ref sig .tc) → Buf (Elt F) ((c : Thread nD τ).loc b) :=
  fun c b => W c b

set_option backward.isDefEq.respectTransparency.types false in
def reg (p : Fin 6) (lf : Pipeline.LaunchFacts (nD := nD) (τ := τ) cfgs p) (W W' : Dev nD → Valuation τ sig (Elt F))
    (hbody : ∀ c, Pipeline.BodyObligationLoose (pdats m ρ p c) defs₀ 𝒱₀ () Set.univ)
    (hq : ∀ c w, (pdats m ρ p c).q w = fullShare) (howed : ∀ c t, (pdats m ρ p c).owed t = 0)
    (hrec : ∀ c t, (pdats m ρ p c).recorded t = Set.univ)
    (hΦ : ∀ c t, (pdats m ρ p c).Φ t = Pipeline.ΦA (cfgs p).spec c)
    (hA : ∀ c w, (pdats m ρ p c).A w = tcv W c (Pipeline.arrRef (cfgs p).spec w))
    (hF : ∀ c w, (pdats m ρ p c).arrAt w (cfgs p).N = tcv W' c (Pipeline.arrRef (cfgs p).spec w))
    (hrest : ∀ c b, (∀ w, Pipeline.arrRef (cfgs p).spec w ≠ b) → tcv W' c b = tcv W c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (tcv W c)
  hentry c := by
    rw [Pipeline.ownSems0_none]
    have hsplit := Pipeline.arrays_of_unscopedBufs (p := p) (pcfgs (F := F)) adm (pdats m ρ) lf.win lf.arr_whole c
      ((pdats m ρ p c).share_full (hq c)) (tcv W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (tcv W c) (tcv W' c) ((pdats m ρ p c).arrAt · (cfgs p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (W2 m ρ) (fun c => (body_obligation0 (V1 m ρ) c).loose) (fun _ _ => rfl) (fun _ _ => rfl)
      (fun _ _ => rfl) (fun _ _ => rfl) (fun _ _ => rfl) (fun c w => (W2_arr m ρ c w).symm) (W2_of_ne m ρ)),
    .host (hseg hostOps1 hostOps1_sub hostOps1_fresh (W2 m ρ)),
    .region (reg m ρ 1 launch1 (W3 m ρ) (W4 m ρ) (fun c => (body_obligation1 (V3 m ρ) c).loose) (fun _ _ => rfl) (fun _ _ => rfl)
      (fun _ _ => rfl) (fun _ _ => rfl) (fun _ _ => rfl) (fun c w => (W4_arr m ρ c w).symm) (W4_of_ne m ρ)),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .region (reg m ρ 2 launch2 (W8 m ρ) (W9 m ρ) (fun c => (body_obligation2 (V8 m ρ) c).loose) (fun _ _ => rfl) (fun _ _ => rfl)
      (fun _ _ => rfl) (fun _ _ => rfl) (fun _ _ => rfl) (fun c w => (W9_arr m ρ c w).symm) (W9_of_ne m ρ)),
    .host (hseg hostOps3 hostOps3_sub hostOps3_fresh (W9 m ρ)),
    .region (reg m ρ 3 launch3 (W10 m ρ) (W11 m ρ) (fun c => (body_obligation3 (V10 m ρ) c).loose) (fun _ _ => rfl) (fun _ _ => rfl)
      (fun _ _ => rfl) (fun _ _ => rfl) (fun _ _ => rfl) (fun c w => (W11_arr m ρ c w).symm) (W11_of_ne m ρ)),
    .host (hseg hostOps4 hostOps4_sub hostOps4_fresh (W11 m ρ)),
    .host (hseg hostOps4_1 hostOps4_1_sub hostOps4_1_fresh (W12 m ρ)),
    .host (hseg hostOps4_2 hostOps4_2_sub hostOps4_2_fresh (W13 m ρ)),
    .host (hseg hostOps4_3 hostOps4_3_sub hostOps4_3_fresh (W14 m ρ)),
    .region (reg m ρ 4 launch4 (W15 m ρ) (W16 m ρ) (fun c => (body_obligation4 (V15 m ρ) c).loose) (fun _ _ => rfl) (fun _ _ => rfl)
      (fun _ _ => rfl) (fun _ _ => rfl) (fun _ _ => rfl) (fun c w => (W16_arr m ρ c w).symm) (W16_of_ne m ρ)),
    .host (hseg hostOps5 hostOps5_sub hostOps5_fresh (W16 m ρ)),
    .region (reg m ρ 5 launch5 (W17 m ρ) (W18 m ρ) (fun c => (body_obligation5 (V17 m ρ) c).loose) (fun _ _ => rfl) (fun _ _ => rfl)
      (fun _ _ => rfl) (fun _ _ => rfl) (fun _ _ => rfl) (fun c w => (W18_arr m ρ c w).symm) (W18_of_ne m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

theorem kept {r : PUnit × MemSt nD τ sig (Elt F)} (h : ∀ c : Dev nD, ∀ b ∈ Pipeline.ucRefs τ sig, r.2.mem (((c : Thread nD τ)).1, b) = W18 m ρ c b)
    (c : Dev nD) (a : Ref sig .tc) (ha : Kept a) (hs : ¬ (Proc.devRef .tc a : DevRef τ sig).isScoped) :
    r.2.mem ((c.tc : Thread nD τ).loc a) = m ((c.tc : Thread nD τ).loc a) :=
  (h c _ (mem_uc a hs)).trans (W18_kept m ρ c a ha)

omit m ρ in
theorem args15 {P : Ref sig .tc → Prop} (h : ∀ a, Kept a → ¬ (Proc.devRef .tc a : DevRef τ sig).isScoped → P a) :
    P main_arg0 ∧ P main_arg1 ∧ P main_arg2 ∧ P main_arg3 ∧ P main_arg4 ∧ P main_arg5 ∧ P main_arg6 ∧ P main_arg7 ∧ P main_arg8
      ∧ P main_arg9 ∧ P main_arg10 ∧ P main_arg11 ∧ P main_arg12 ∧ P main_arg13 ∧ P main_arg14 :=
  ⟨h _ (by decide) (by decide), h _ (by decide) (by decide), h _ (by decide) (by decide), h _ (by decide) (by decide),
    h _ (by decide) (by decide), h _ (by decide) (by decide), h _ (by decide) (by decide), h _ (by decide) (by decide),
    h _ (by decide) (by decide), h _ (by decide) (by decide), h _ (by decide) (by decide), h _ (by decide) (by decide),
    h _ (by decide) (by decide), h _ (by decide) (by decide), h _ (by decide) (by decide)⟩

end Cert.KernelIdeal.Fr

end
-- ==== Proof.Spec.lean ====
import Idealize.ShloMosaic.PureOps.Ideal
import Idealize.ShloMosaic.Lib.ValueIdx
import Mathlib.Algebra.BigOperators.Group.Finset.Basic
import Mathlib.Algebra.BigOperators.Fin
import Mathlib.Logic.Equiv.Fin.Basic

noncomputable section

open scoped BigOperators

namespace Cert.Spec

open Idealize.ShloMosaic Idealize.ShloMosaic.ValueIdx

abbrev EdgeList : Type := (⟨2, ![2, 800000]⟩ : Shape).Idx → BitVec 32

def scale : EReal := Ideal.ofBits .f32 0x3EB504F3#32
def lo : EReal := Ideal.ofBits .f32 0xC0A00000#32
def hi : EReal := Ideal.ofBits .f32 0x40A00000#32
def eps : EReal := Ideal.ofBits .f32 0x358637BD#32

def lin {n p o : ℕ} (x : Fin n → Fin p → EReal) (W : Fin p → Fin o → EReal) (b : Fin o → EReal) (i : Fin n) (j : Fin o) : EReal :=
  (∑ k : Fin p, x i k * W k j) + b j

def node (ei : EdgeList) (r : Fin 2) (e : Fin 800000) : Fin 50000 :=
  ⟨min (ei (ix2 r e)).toInt.toNat 49999, by omega⟩

def col (h d : Fin 8) : Fin 64 := ⟨8 * h.val + d.val, by omega⟩

def head (j : Fin 64) : Fin 8 := ⟨j.val / 8, by omega⟩

def incoming (ei : EdgeList) (n : Fin 50000) : Finset (Fin 800000) :=
  Finset.univ.filter fun e => (ei (ix2 1 e)).toInt = (n.val : ℤ)

section Attention
variable (Q K V : Fin 50000 → Fin 64 → EReal) (Ee : Fin 800000 → Fin 64 → EReal) (ei : EdgeList)

def weight (e : Fin 800000) (h : Fin 8) : EReal :=
  Ideal.exp (min hi (max lo (∑ d : Fin 8, K (node ei 0 e) (col h d) * Q (node ei 1 e) (col h d) * scale * Ee e (col h d))))

def num (n : Fin 50000) (j : Fin 64) : EReal := ∑ e ∈ incoming ei n, weight Q K Ee ei e (head j) * V (node ei 0 e) j
def den (n : Fin 50000) (h : Fin 8) : EReal := ∑ e ∈ incoming ei n, weight Q K Ee ei e h

def phi (n : Fin 50000) (j : Fin 64) : EReal := Ideal.div (num Q K V Ee ei n j) (den Q K Ee ei n (head j) + eps)

end Attention

section Layer
variable (x : Fin 50000 → Fin 16 → EReal) (ea : Fin 800000 → Fin 16 → EReal) (ei : EdgeList)
  (Wq : Fin 16 → Fin 64 → EReal) (bq : Fin 64 → EReal) (Wk : Fin 16 → Fin 64 → EReal) (bk : Fin 64 → EReal)
  (Wv : Fin 16 → Fin 64 → EReal) (bv : Fin 64 → EReal) (We : Fin 16 → Fin 64 → EReal) (be : Fin 64 → EReal)
  (W1 : Fin 64 → Fin 128 → EReal) (b1 : Fin 128 → EReal) (W2 : Fin 128 → Fin 64 → EReal) (b2 : Fin 64 → EReal)

def attn (n : Fin 50000) (j : Fin 64) : EReal :=
  phi (lin x Wq bq) (lin x Wk bk) (lin x Wv bv) (lin ea We be) ei n j

def hidden (n : Fin 50000) (j : Fin 64) : EReal :=
  attn x ea ei Wq bq Wk bk Wv bv We be n j + attn (fun i k => - x i k) ea ei Wq bq Wk bk Wv bv We be n j

def mlp (h : Fin 50000 → Fin 64 → EReal) (n : Fin 50000) (o : Fin 64) : EReal :=
  (∑ k : Fin 128, max (lin h W1 b1 n k) 0 * W2 k o) + b2 o

def out (n : Fin 50000) (o : Fin 64) : EReal :=
  mlp W1 b1 W2 b2 (hidden x ea ei Wq bq Wk bk Wv bv We be) n o

end Layer

def edgeW (Ks Qd Ee : Fin 800000 → Fin 64 → EReal) (e : Fin 800000) (h : Fin 8) : EReal :=
  Ideal.exp (min hi (max lo (∑ d : Fin 8, Ks e (col h d) * Qd e (col h d) * scale * Ee e (col h d))))

theorem weight_eq (Q K : Fin 50000 → Fin 64 → EReal) (Ee : Fin 800000 → Fin 64 → EReal) (ei : EdgeList) (e : Fin 800000) (h : Fin 8) :
    weight Q K Ee ei e h = edgeW (fun e j => K (node ei 0 e) j) (fun e j => Q (node ei 1 e) j) Ee e h := rfl

def grp (j : Fin 64) (h : Fin 8) : EReal := if j.val / 8 = h.val then 1 else 0

def colEquiv : Fin 8 × Fin 8 ≃ Fin 64 where
  toFun p := col p.1 p.2
  invFun j := (head j, ⟨j.val % 8, Nat.mod_lt _ (by decide)⟩)
  left_inv p := by
    obtain ⟨h, d⟩ := p
    refine Prod.ext (Fin.ext ?_) (Fin.ext ?_)
    · show (8 * h.val + d.val) / 8 = h.val
      omega
    · show (8 * h.val + d.val) % 8 = d.val
      omega
  right_inv j := Fin.ext (by show 8 * (j.val / 8) + j.val % 8 = j.val; omega)

theorem grp_col (h' d h : Fin 8) : grp (col h' d) h = if h' = h then 1 else 0 := by
  unfold grp col
  have e : (8 * h'.val + d.val) / 8 = h'.val := by omega
  simp only [e, Fin.ext_iff]

theorem sum_grp (f : Fin 64 → EReal) (h : Fin 8) : (∑ j : Fin 64, f j * grp j h) = ∑ d : Fin 8, f (col h d) := by
  rw [← colEquiv.sum_comp (fun j : Fin 64 => f j * grp j h), Fintype.sum_prod_type]
  show ∑ h' : Fin 8, ∑ d : Fin 8, f (col h' d) * grp (col h' d) h = _
  simp [grp_col, Finset.sum_ite_irrel]

theorem sum_grp_t (g : Fin 8 → EReal) (j : Fin 64) : (∑ h : Fin 8, g h * grp j h) = g (head j) := by
  have e : ∀ h, grp j h = if head j = h then 1 else 0 := fun h => by
    unfold grp head
    simp only [Fin.ext_iff]
  simp [e]

abbrev Arr2 (a b : ℕ) : Type := (⟨2, ![a, b]⟩ : Shape).Idx → EReal
abbrev Arr1 (a : ℕ) : Type := (⟨1, ![a]⟩ : Shape).Idx → EReal
def m2 {a b : ℕ} (A : Arr2 a b) (i : Fin a) (j : Fin b) : EReal := A (ix2 i j)
def m1 {a : ℕ} (A : Arr1 a) (i : Fin a) : EReal := A (ix1 i)

def attnA (a0 : Arr2 50000 16) (a1 : Arr2 800000 16) (a2 : EdgeList) (a3 : Arr2 16 64) (a4 : Arr1 64) (a5 : Arr2 16 64) (a6 : Arr1 64)
    (a7 : Arr2 16 64) (a8 : Arr1 64) (a9 : Arr2 16 64) (a10 : Arr1 64) (n : Fin 50000) (j : Fin 64) : EReal :=
  attn (m2 a0) (m2 a1) a2 (m2 a3) (m1 a4) (m2 a5) (m1 a6) (m2 a7) (m1 a8) (m2 a9) (m1 a10) n j

def outA (a0 : Arr2 50000 16) (a1 : Arr2 800000 16) (a2 : EdgeList) (a3 : Arr2 16 64) (a4 : Arr1 64) (a5 : Arr2 16 64) (a6 : Arr1 64)
    (a7 : Arr2 16 64) (a8 : Arr1 64) (a9 : Arr2 16 64) (a10 : Arr1 64) (a11 : Arr2 64 128) (a12 : Arr1 128) (a13 : Arr2 128 64) (a14 : Arr1 64)
    (n : Fin 50000) (o : Fin 64) : EReal :=
  out (m2 a0) (m2 a1) a2 (m2 a3) (m1 a4) (m2 a5) (m1 a6) (m2 a7) (m1 a8) (m2 a9) (m1 a10) (m2 a11) (m1 a12) (m2 a13) (m1 a14) n o

theorem outA_eq (a0 : Arr2 50000 16) (a1 : Arr2 800000 16) (a2 : EdgeList) (a3 : Arr2 16 64) (a4 : Arr1 64) (a5 : Arr2 16 64) (a6 : Arr1 64)
    (a7 : Arr2 16 64) (a8 : Arr1 64) (a9 : Arr2 16 64) (a10 : Arr1 64) (a11 : Arr2 64 128) (a12 : Arr1 128) (a13 : Arr2 128 64) (a14 : Arr1 64)
    (n : Fin 50000) (o : Fin 64) :
    outA a0 a1 a2 a3 a4 a5 a6 a7 a8 a9 a10 a11 a12 a13 a14 n o
      = mlp (m2 a11) (m1 a12) (m2 a13) (m1 a14)
          (fun n j => attnA a0 a1 a2 a3 a4 a5 a6 a7 a8 a9 a10 n j + attnA (fun i => - a0 i) a1 a2 a3 a4 a5 a6 a7 a8 a9 a10 n j) n o := rfl

def InRange (ei : EdgeList) : Prop := ∀ (r : Fin 2) (e : Fin 800000), 0 ≤ (ei (ix2 r e)).toInt ∧ (ei (ix2 r e)).toInt < 50000

end Cert.Spec

end
-- ==== Proof.KI.Dot.lean ====
import Idealize.ShloMosaic.Lib.StackMember
import Idealize.ShloMosaic.PureOps.Ideal.Laws

noncomputable section

open scoped BigOperators

namespace Cert.KernelIdeal.Val

open Idealize.ShloMosaic Idealize.ShloMosaic.ValueIdx

-- Into a zero accumulator the product of an m × k by a k × n block is, entry by entry, the sum over the contracted coordinate.
theorem matmul_plain_apply {m k n : Nat} {φ₁ φ₂ : FTy} (l : FVec Ideal ⟨2, ![m, k]⟩ φ₁) (r : FVec Ideal ⟨2, ![k, n]⟩ φ₂)
    (a : Fin m) (b : Fin n) :
    matmul (DotDims.plain m k n) none l r (constant (F := Ideal) ⟨2, ![m, n]⟩ .f32 0x00000000#32) (ix2 a b)
      = ∑ c : Fin k, l (ix2 a c) * r (ix2 c b) :=
  (Ideal.matmul_constant_zero_apply _ none l r _).trans
    ((Ideal.dotGeneral_apply _ none _ l r _).symm.trans (StackMember.dotGeneral_plain_apply none l r a b))

end Cert.KernelIdeal.Val

end
-- ==== Proof.KI.Val0.lean ====
import proofs.«412297_j88252987998303_2_alg».proof.Proof.KI.R0
import proofs.«412297_j88252987998303_2_alg».proof.Proof.KI.Dot
import proofs.«412297_j88252987998303_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem pay0_apply (x0 : Vec Ideal S20000x16 .f32) (x1 : Vec Ideal S16x64 .f32) (x2 : Vec Ideal S1x64 .f32) (r : Fin 20000) (j : Fin 64) :
    (k0_pay1 (F := Ideal) x0 x1 x2) (ix2 r j) = (∑ k : Fin 16, x0 (ix2 r k) * x1 (ix2 k j)) + x2 (ix2 0 j) := by
  unfold k0_pay1
  refine (addf_apply _ _ (ix2 r j)).trans ?_
  refine congrArg₂ (· + ·) ?_ ?_
  · exact matmul_plain_apply (truncf .bf16 x0 bitsLt_bf16_f32) (truncf .bf16 x1 bitsLt_bf16_f32) r j
  · rw [shapeCast_self]
    exact broadcastTo_apply x2 broadcasts_S1x64_S20000x64 (ix2 r j) (ix2 0 j) (fun a => by
      match a with
      | ⟨0, _⟩ => rfl
      | ⟨1, _⟩ => rfl)

def G0 (a : S800000x16.Idx → EReal) (w : S16x64.Idx → EReal) (b : S1x64.Idx → EReal) : S800000x64.Idx → EReal := fun i =>
  Cert.Spec.lin (fun (e : Fin 800000) (k : Fin 16) => a (ix2 e k)) (fun (k : Fin 16) (j : Fin 64) => w (ix2 k j)) (fun (j : Fin 64) => b (ix2 0 j))
    ⟨(i 0).val, (i 0).isLt⟩ ⟨(i 1).val, (i 1).isLt⟩

theorem G0_apply (a : S800000x16.Idx → EReal) (w : S16x64.Idx → EReal) (b : S1x64.Idx → EReal) (R : Fin 800000) (j : Fin 64) :
    G0 a w b (ix2 R j) = (∑ k : Fin 16, a (ix2 R k) * w (ix2 k j)) + b (ix2 0 j) := rfl

theorem hz0 : (![0, 0] : Fin 2 → Nat) = fun _ => 0 := funext fun a => by fin_cases a <;> rfl

theorem idx_facts0 : ∀ t : Fin cfg0.N, win0_3.index t (0 : Fin 2) = t.val
    ∧ win0_3.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0 :=
  (by decide +kernel : ∀ t : Fin grid0.N, _)

def row0 (t : Fin cfg0.N) (r : Fin 20000) : Fin 800000 :=
  ⟨t.val * 20000 + r.val, by have ht : t.val < 40 := t.isLt.trans_eq N_0; have hr := r.isLt; omega⟩

theorem blk0_0 (c : Dev nD) (t : Fin cfg0.N) (r : Fin 20000) (k : Fin 16) :
    (iblk0 V c 0 t : Vec Ideal S20000x16 .f32) (ix2 r k) = (V c main_arg1 : S800000x16.Idx → EReal) (ix2 (row0 t r) k) := by
  obtain ⟨e30, e31, e00, e01, e10, e11, e20, e21⟩ := idx_facts0 t
  unfold iblk0
  rw [View.read_apply]
  show V c main_arg1 _ = V c main_arg1 _
  congr 1
  funext a
  apply Fin.ext
  match a with
  | ⟨0, _⟩ => show win0_0.index t (0 : Fin 2) * 20000 + 1 * r.val = t.val * 20000 + r.val; rw [e00]; omega
  | ⟨1, _⟩ => show win0_0.index t (1 : Fin 2) * 16 + 1 * k.val = k.val; rw [e01]; omega

theorem blk0_1 (c : Dev nD) (t : Fin cfg0.N) (k : Fin 16) (j : Fin 64) :
    (iblk0 V c 1 t : Vec Ideal S16x64 .f32) (ix2 k j) = (V c main_arg9 : S16x64.Idx → EReal) (ix2 k j) := by
  obtain ⟨e30, e31, e00, e01, e10, e11, e20, e21⟩ := idx_facts0 t
  unfold iblk0
  rw [View.read_apply]
  show V c main_arg9 _ = V c main_arg9 _
  congr 1
  funext a
  apply Fin.ext
  match a with
  | ⟨0, _⟩ => show win0_1.index t (0 : Fin 2) * 16 + 1 * k.val = k.val; rw [e10]; omega
  | ⟨1, _⟩ => show win0_1.index t (1 : Fin 2) * 64 + 1 * j.val = j.val; rw [e11]; omega

theorem blk0_2 (c : Dev nD) (t : Fin cfg0.N) (j : Fin 64) :
    (iblk0 V c 2 t : Vec Ideal S1x64 .f32) (ix2 0 j) = (V c main_v6 : S1x64.Idx → EReal) (ix2 0 j) := by
  obtain ⟨e30, e31, e00, e01, e10, e11, e20, e21⟩ := idx_facts0 t
  unfold iblk0
  rw [View.read_apply]
  show V c main_v6 _ = V c main_v6 _
  congr 1
  funext a
  apply Fin.ext
  match a with
  | ⟨0, _⟩ => show win0_2.index t (0 : Fin 2) * 1 + 1 * 0 = 0; rw [e20]
  | ⟨1, _⟩ => show win0_2.index t (1 : Fin 2) * 64 + 1 * j.val = j.val; rw [e21]; omega

theorem emb0_3 (t : Fin cfg0.N) (r : Fin 20000) (j : Fin 64) :
    (((cfg0.win 3).blk t).view.emb (ix2 r j) : S800000x64.Idx) = ix2 (row0 t r) j := by
  obtain ⟨e30, e31, e00, e01, e10, e11, e20, e21⟩ := idx_facts0 t
  funext a
  apply Fin.ext
  match a with
  | ⟨0, _⟩ => show win0_3.index t (0 : Fin 2) * 20000 + 1 * r.val = t.val * 20000 + r.val; rw [e30]; omega
  | ⟨1, _⟩ => show win0_3.index t (1 : Fin 2) * 64 + 1 * j.val = j.val; rw [e31]; omega

theorem flushed0_eq (c : Dev nD) (t : Fin cfg0.N) :
    (dat0 (F := Ideal) V c).flushed 3 t = ((cfg0.win 3).blk t).view.read (Elt Ideal) (G0 (V c main_arg1) (V c main_arg9) (V c main_v6)) := by
  show (cfg0.win 3).cut (grid0.coords t) ((dat0 (F := Ideal) V c).after 3 t) = _
  rw [after0_3]
  unfold out0_3
  rw [View.canon_unit_zero hz0]
  simp only [View.ld_unit_zero (S := S20000x16) hz0, View.ld_unit_zero (S := S16x64) hz0, View.ld_unit_zero (S := S1x64) hz0]
  funext y
  obtain ⟨r, j, rfl⟩ : ∃ (r : Fin 20000) (j : Fin 64), y = ix2 r j := ⟨y 0, y 1, eq_ix2 y⟩
  show (k0_pay1 (F := Ideal) (iblk0 V c 0 t) (iblk0 V c 1 t) (iblk0 V c 2 t)) (ix2 r j)
    = G0 (V c main_arg1) (V c main_arg9) (V c main_v6) (((cfg0.win 3).blk t).view.emb (ix2 r j))
  rw [emb0_3]
  refine (pay0_apply (iblk0 V c 0 t) (iblk0 V c 1 t) (iblk0 V c 2 t) r j).trans ?_
  refine Eq.trans ?_ (G0_apply (V c main_arg1) (V c main_arg9) (V c main_v6) (row0 t r) j).symm
  rw [blk0_2 V c t j]
  refine congrArg (· + _) (Finset.sum_congr rfl fun k _ => ?_)
  rw [blk0_0 V c t r k, blk0_1 V c t k j]

theorem mem_blk0 (t : Fin cfg0.N) (i : S800000x64.Idx) :
    i ∈ ((cfg0.win 3).blk t).view.set ↔ ∀ a : Fin 2, win0_3.index t a * S20000x64.size a ≤ (i a).val ∧ (i a).val < win0_3.index t a * S20000x64.size a + S20000x64.size a := by
  show i ∈ ((View.whole main_v7).slice (win0_3.rect t)).set ↔ _
  rw [View.set_slice_whole, Rect.mem_set_unit]
  exact Iff.rfl

theorem cover0 (i : S800000x64.Idx) : ∃ t : Fin cfg0.N, (cfg0.win 3).flush t = true ∧ i ∈ ((cfg0.win 3).blk t).view.set := by
  have hN : grid0.N = 40 := N_0
  have hi0 : (i 0).val < 800000 := (i 0).isLt
  have hi1 : (i 1).val < 64 := (i 1).isLt
  refine ⟨⟨(i 0).val / 20000, by show (i 0).val / 20000 < grid0.N; rw [hN]; omega⟩, flush0_3 _, ?_⟩
  rw [mem_blk0]
  obtain ⟨e30, e31, -⟩ := idx_facts0 ⟨(i 0).val / 20000, by show (i 0).val / 20000 < grid0.N; rw [hN]; omega⟩
  intro a
  match a with
  | ⟨0, _⟩ =>
    show win0_3.index _ (0 : Fin 2) * 20000 ≤ (i 0).val ∧ (i 0).val < win0_3.index _ (0 : Fin 2) * 20000 + 20000
    rw [e30]
    show (i 0).val / 20000 * 20000 ≤ (i 0).val ∧ (i 0).val < (i 0).val / 20000 * 20000 + 20000
    omega
  | ⟨1, _⟩ =>
    show win0_3.index _ (1 : Fin 2) * 64 ≤ (i 1).val ∧ (i 1).val < win0_3.index _ (1 : Fin 2) * 64 + 64
    rw [e31]
    omega

theorem arrAt0_eq (c : Dev nD) :
    (dat0 (F := Ideal) V c).arrAt 3 cfg0.N = G0 (V c main_arg1) (V c main_arg9) (V c main_v6) :=
  (dat0 (F := Ideal) V c).arrAt_eq_of_cover 3 (G0 (V c main_arg1) (V c main_arg9) (V c main_v6)) (fun t _ => flushed0_eq V c t) cover0

theorem final0 (c : Dev nD) (e : Fin 800000) (j : Fin 64) :
    (dat0 (F := Ideal) V c).arrAt 3 cfg0.N (ix2 e j)
      = Cert.Spec.lin (fun (e : Fin 800000) (k : Fin 16) => V c main_arg1 (ix2 e k)) (fun (k : Fin 16) (j : Fin 64) => V c main_arg9 (ix2 k j)) (fun (j : Fin 64) => V c main_v6 (ix2 0 j)) e j := by
  rw [arrAt0_eq]
  rfl

end Cert.KernelIdeal.Val
-- ==== Proof.KI.Val1.lean ====
import proofs.«412297_j88252987998303_2_alg».proof.Proof.KI.R1
import proofs.«412297_j88252987998303_2_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

-- A plain 10000×16 by 16×192 product into zero plus the one bias row; narrowing is the identity on the extended reals.
theorem pay1_apply (x0 : Vec Ideal S10000x16 .f32) (x1 : Vec Ideal S16x192 .f32) (x2 : Vec Ideal S1x192 .f32)
    (p : Fin 10000) (j : Fin 192) :
    k1_pay1 (F := Ideal) x0 x1 x2 (ix2 p j) = (∑ k : Fin 16, x0 (ix2 p k) * x1 (ix2 k j)) + x2 (ix2 (0 : Fin 1) j) := by
  unfold k1_pay1
  simp only [shapeCast_self]
  refine (addf_apply _ _ (ix2 p j)).trans (congrArg₂ (· + ·) ?_ (broadcastTo_1b_ab_apply x2 broadcasts_S1x192_S10000x192 p j))
  exact (congrFun (matmul_zero_eq_dotGeneral _ none _ _) _).trans (StackMember.dotGeneral_plain_apply none _ _ p j)

section Region
variable (V : (c : Dev nD) → (b : Ref sig .tc) → Buf (Elt Ideal) ((c : Thread nD τ).loc b))

def G1 (a0 : S50000x16.Idx → EReal) (a1 : S16x192.Idx → EReal) (a2 : S1x192.Idx → EReal) : S50000x192.Idx → EReal :=
  fun i => Cert.Spec.lin (fun (n : Fin 50000) (k : Fin 16) => a0 (ix2 n k)) (fun (k : Fin 16) (j : Fin 192) => a1 (ix2 k j))
    (fun (j : Fin 192) => a2 (ix2 (0 : Fin 1) j)) (i 0) (i 1)

theorem hz1 : (![0, 0] : Fin 2 → Nat) = fun _ => 0 := funext fun a => by fin_cases a <;> rfl

theorem idxfacts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

-- Each loaded block sits in its array at the place the output block's entry names, so the body's entry is G1's.
theorem blockread1 (c : Dev nD) (t : Fin cfg1.N) (y : S10000x192.Idx) :
    k1_pay1 (F := Ideal) (iblk1 V c 0 t) (iblk1 V c 1 t) (iblk1 V c 2 t) y
      = G1 (V c (Pipeline.arrRef spec1 0)) (V c (Pipeline.arrRef spec1 1)) (V c (Pipeline.arrRef spec1 2)) (((cfg1.win 3).blk t).view.emb y) := by
  obtain ⟨p, q, rfl⟩ : ∃ (p : Fin 10000) (q : Fin 192), y = ix2 p q := ⟨y 0, y 1, eq_ix2 y⟩
  obtain ⟨e0, e1, e2, e3, e4, e5, e6, e7⟩ := idxfacts1 t
  rw [pay1_apply]
  unfold G1 Cert.Spec.lin
  refine congrArg₂ (· + ·) (Finset.sum_congr rfl fun k _ => congrArg₂ (· * ·) ?_ ?_) ?_
  · show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 16 + 1 * k.val = k.val; omega
  · show V c (Pipeline.arrRef spec1 1) (((cfg1.win 1).blk t).view.emb (ix2 k q)) = _
    refine congrArg (V c (Pipeline.arrRef spec1 1)) (funext fun a => Fin.ext ?_)
    match a with
    | ⟨0, _⟩ => show win1_1.index t (0 : Fin 2) * 16 + 1 * k.val = k.val; omega
    | ⟨1, _⟩ => show win1_1.index t (1 : Fin 2) * 192 + 1 * q.val = win1_3.index t (1 : Fin 2) * 192 + 1 * q.val; omega
  · show V c (Pipeline.arrRef spec1 2) (((cfg1.win 2).blk t).view.emb (ix2 (0 : Fin 1) q)) = _
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 192 + 1 * q.val = win1_3.index t (1 : Fin 2) * 192 + 1 * q.val; omega

theorem flushed1_eq (c : Dev nD) (t : Fin cfg1.N) :
    (dat1 (F := Ideal) V c).flushed 3 t
      = ((cfg1.win 3).blk t).view.read (Elt Ideal) (G1 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S10000x16) hz1, View.ld_unit_zero (S := S16x192) hz1, View.ld_unit_zero (S := S1x192) hz1]
  funext y
  exact blockread1 V c t y

-- Row r of the output lies in the block of point r / 10000.
theorem covered1 (i : S50000x192.Idx) : ∃ t : Fin cfg1.N, (cfg1.win 3).flush t = true ∧ i ∈ ((cfg1.win 3).blk t).view.set := by
  have hN : cfg1.N = 5 := N_1
  have hi0 : (i 0).val < 50000 := (i 0).isLt
  have hi1 : (i 1).val < 192 := (i 1).isLt
  obtain ⟨t, ht⟩ : ∃ t : Fin cfg1.N, t.val = (i 0).val / 10000 := ⟨⟨(i 0).val / 10000, by omega⟩, rfl⟩
  obtain ⟨-, -, -, -, -, -, e6, e7⟩ := idxfacts1 t
  refine ⟨t, flush1_3 t, ?_⟩
  show i ∈ ((View.whole (Pipeline.arrRef spec1 3)).slice (win1_3.rect t)).set
  rw [View.set_slice_whole, Rect.mem_set_unit]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 192 ≤ (i 1).val ∧ (i 1).val < win1_3.index t (1 : Fin 2) * 192 + 192; omega

theorem final1 (c : Dev nD) (n : Fin 50000) (j : Fin 192) :
    (dat1 (F := Ideal) V c).arrAt 3 cfg1.N (ix2 n j)
      = Cert.Spec.lin (fun (n : Fin 50000) (k : Fin 16) => V c (Pipeline.arrRef spec1 0) (ix2 n k)) (fun (k : Fin 16) (j : Fin 192) => V c (Pipeline.arrRef spec1 1) (ix2 k j)) (fun (j : Fin 192) => V c (Pipeline.arrRef spec1 2) (ix2 0 j)) n j :=
  congrFun ((dat1 (F := Ideal) V c).arrAt_eq_of_cover 3 (G1 (V c (Pipeline.arrRef spec1 0)) (V c (Pipeline.arrRef spec1 1)) (V c (Pipeline.arrRef spec1 2))) (fun t _ => flushed1_eq V c t) covered1) (ix2 n j)

end Region

end Cert.KernelIdeal.Val

end
-- ==== Proof.KI.Val2.lean ====
import proofs.«412297_j88252987998303_2_alg».proof.Proof.KI.R2
import proofs.«412297_j88252987998303_2_alg».proof.Proof.Spec
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

-- The body's two contractions are plain rows-by-columns products into zero, which the library reads at an entry as a sum.
theorem mm2_sel_apply (l : FVec Ideal S5000x64 .f32) (r : FVec Ideal S64x8 .f32) (prec : Option ContractPrecision) (p : Fin 5000) (q : Fin 8) :
    matmul dot_S5000x64_S64x8_S5000x8_1_0_0_1_n_n prec l r (constant S5000x8 .f32 0x00000000#32) (ix2 p q) = ∑ k : Fin 64, l (ix2 p k) * r (ix2 k q) :=
  (congrFun (matmul_zero_eq_dotGeneral _ prec l r) _).trans (StackMember.dotGeneral_plain_apply prec l r p q)

theorem mm2_exp_apply (l : FVec Ideal S5000x8 .f32) (r : FVec Ideal S8x64 .f32) (prec : Option ContractPrecision) (p : Fin 5000) (q : Fin 64) :
    matmul dot_S5000x8_S8x64_S5000x64_1_0_0_1_n_n prec l r (constant S5000x64 .f32 0x00000000#32) (ix2 p q) = ∑ k : Fin 8, l (ix2 p k) * r (ix2 k q) :=
  (congrFun (matmul_zero_eq_dotGeneral _ prec l r) _).trans (StackMember.dotGeneral_plain_apply prec l r p q)

theorem k2_pay1_apply (x0 x1 x3 : Vec Ideal S5000x64 .f32) (g : Vec Ideal S64x8 .f32) (p : Fin 5000) (h : Fin 8) :
    k2_pay1 x0 x1 x3 g (ix2 p h)
      = Ideal.exp (min Cert.Spec.hi (max Cert.Spec.lo (∑ j : Fin 64, (x0 (ix2 p j) * x1 (ix2 p j) * x3 (ix2 p j) * Cert.Spec.scale) * g (ix2 j h)))) := by
  unfold k2_pay1
  simp only [shapeCast_self]
  show Ideal.exp (min Cert.Spec.hi (max Cert.Spec.lo (matmul (F := Ideal) dot_S5000x64_S64x8_S5000x8_1_0_0_1_n_n (some .fp32) (mulf (mulf (mulf x0 x1) x3) (broadcast S5000x64 Cert.Spec.scale)) g (constant (F := Ideal) S5000x8 .f32 0x00000000#32) (ix2 p h)))) = _
  rw [mm2_sel_apply]
  rfl

theorem k2_pay2_apply (x0 x1 x3 : Vec Ideal S5000x64 .f32) (g : Vec Ideal S64x8 .f32) (gt : Vec Ideal S8x64 .f32) (x2 : Vec Ideal S5000x64 .f32) (p : Fin 5000) (j : Fin 64) :
    k2_pay2 x0 x1 x3 g gt x2 (ix2 p j)
      = (∑ h : Fin 8, k2_pay1 x0 x1 x3 g (ix2 p h) * gt (ix2 h j)) * x2 (ix2 p j) := by
  unfold k2_pay2
  simp only [shapeCast_self]
  show (matmul (F := Ideal) dot_S5000x8_S8x64_S5000x64_1_0_0_1_n_n (some .fp32) (k2_pay1 x0 x1 x3 g) gt (constant (F := Ideal) S5000x64 .f32 0x00000000#32) (ix2 p j)) * x2 (ix2 p j) = _
  rw [mm2_exp_apply]

theorem hz2 : (![0, 0] : Fin 2 → Nat) = fun _ => 0 := funext fun a => by fin_cases a <;> rfl

theorem k2_pay1_entry (x0 x1 x3 : Vec Ideal S5000x64 .f32) (x4 : Vec Ideal S64x8 .f32)
    (A0 A1 A3 : S800000x64.Idx → EReal) (p : Fin 5000) (r : Fin 800000) (h : Fin 8)
    (h0 : ∀ j : Fin 64, x0 (ix2 p j) = A0 (ix2 r j)) (h1 : ∀ j : Fin 64, x1 (ix2 p j) = A1 (ix2 r j)) (h3 : ∀ j : Fin 64, x3 (ix2 p j) = A3 (ix2 r j))
    (hg : ∀ (j : Fin 64) (h : Fin 8), x4 (ix2 j h) = Cert.Spec.grp j h) :
    k2_pay1 x0 x1 x3 x4 (ix2 p h) = Cert.Spec.edgeW (fun e j => A0 (ix2 e j)) (fun e j => A1 (ix2 e j)) (fun e j => A3 (ix2 e j)) r h := by
  rw [k2_pay1_apply]
  unfold Cert.Spec.edgeW
  simp only [h0, h1, h3, hg]
  rw [Cert.Spec.sum_grp (fun j => A0 (ix2 r j) * A1 (ix2 r j) * A3 (ix2 r j) * Cert.Spec.scale) h]
  refine congrArg Ideal.exp (congrArg (min _) (congrArg (max _) (Finset.sum_congr rfl fun d _ => ?_)))
  exact mul_right_comm _ _ _

theorem out2_6_entry (x0 x1 x2 x3 : Vec Ideal S5000x64 .f32) (x4 : Vec Ideal S64x8 .f32) (x5 : Vec Ideal S8x64 .f32)
    (A0 A1 A3 : S800000x64.Idx → EReal) (p : Fin 5000) (r : Fin 800000) (h : Fin 8)
    (h0 : ∀ j : Fin 64, x0 (ix2 p j) = A0 (ix2 r j)) (h1 : ∀ j : Fin 64, x1 (ix2 p j) = A1 (ix2 r j)) (h3 : ∀ j : Fin 64, x3 (ix2 p j) = A3 (ix2 r j))
    (hg : ∀ (j : Fin 64) (h : Fin 8), x4 (ix2 j h) = Cert.Spec.grp j h) :
    out2_6 x0 x1 x2 x3 x4 x5 (ix2 p h) = Cert.Spec.edgeW (fun e j => A0 (ix2 e j)) (fun e j => A1 (ix2 e j)) (fun e j => A3 (ix2 e j)) r h := by
  unfold out2_6
  rw [View.canon_unit_zero hz2]
  simp only [View.ld_unit_zero (S := S5000x64) hz2, View.ld_unit_zero (S := S64x8) hz2]
  exact k2_pay1_entry x0 x1 x3 x4 A0 A1 A3 p r h h0 h1 h3 hg

theorem out2_7_entry (x0 x1 x2 x3 : Vec Ideal S5000x64 .f32) (x4 : Vec Ideal S64x8 .f32) (x5 : Vec Ideal S8x64 .f32)
    (A0 A1 A2 A3 : S800000x64.Idx → EReal) (p : Fin 5000) (r : Fin 800000) (j : Fin 64)
    (h0 : ∀ j : Fin 64, x0 (ix2 p j) = A0 (ix2 r j)) (h1 : ∀ j : Fin 64, x1 (ix2 p j) = A1 (ix2 r j)) (h3 : ∀ j : Fin 64, x3 (ix2 p j) = A3 (ix2 r j))
    (h2 : x2 (ix2 p j) = A2 (ix2 r j))
    (hg : ∀ (j : Fin 64) (h : Fin 8), x4 (ix2 j h) = Cert.Spec.grp j h) (hgt : ∀ (h : Fin 8) (j : Fin 64), x5 (ix2 h j) = Cert.Spec.grp j h) :
    out2_7 x0 x1 x2 x3 x4 x5 (ix2 p j) = Cert.Spec.edgeW (fun e j => A0 (ix2 e j)) (fun e j => A1 (ix2 e j)) (fun e j => A3 (ix2 e j)) r (Cert.Spec.head j) * A2 (ix2 r j) := by
  unfold out2_7
  rw [View.canon_unit_zero hz2]
  simp only [View.ld_unit_zero (S := S5000x64) hz2, View.ld_unit_zero (S := S64x8) hz2, View.ld_unit_zero (S := S8x64) hz2]
  rw [k2_pay2_apply, h2]
  simp only [hgt]
  rw [Cert.Spec.sum_grp_t (fun h => k2_pay1 x0 x1 x3 x4 (ix2 p h)) j]
  exact congrArg (· * A2 (ix2 r j)) (k2_pay1_entry x0 x1 x3 x4 A0 A1 A3 p r (Cert.Spec.head j) h0 h1 h3 hg)

theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_6.index t (0 : Fin 2) = t.val
    ∧ win2_6.index t (1 : Fin 2) = 0
    ∧ win2_7.index t (0 : Fin 2) = t.val
    ∧ win2_7.index t (1 : Fin 2) = 0
    ∧ win2_4.index t (0 : Fin 2) = 0
    ∧ win2_4.index t (1 : Fin 2) = 0
    ∧ win2_5.index t (0 : Fin 2) = 0
    ∧ win2_5.index t (1 : Fin 2) = 0 :=
  (by decide +kernel : ∀ t : Fin grid2.N, _)

theorem row_lt2 (t : Fin cfg2.N) (p : Fin 5000) : t.val * 5000 + p.val < 800000 := by
  have ht : t.val < 160 := t.isLt.trans_eq N_2
  have hp := p.isLt
  omega

section Region
variable (V : (c : Dev nD) → (b : Ref sig .tc) → Buf (Elt Ideal) ((c : Thread nD τ).loc b))

theorem iblk2_0_apply (c : Dev nD) (t : Fin cfg2.N) (p : Fin 5000) (j : Fin 64) :
    (iblk2 V c 0 t : Vec Ideal S5000x64 .f32) (ix2 p j) = (V c (Pipeline.arrRef spec2 0) : S800000x64.Idx → EReal) (ix2 ⟨t.val * 5000 + p.val, row_lt2 t p⟩ j) := by
  obtain ⟨e0r, e0c, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = t.val * 5000 + p.val; rw [e0r]; omega
  | ⟨1, _⟩ => show win2_0.index t (1 : Fin 2) * 64 + 1 * j.val = j.val; rw [e0c]; omega

theorem iblk2_1_apply (c : Dev nD) (t : Fin cfg2.N) (p : Fin 5000) (j : Fin 64) :
    (iblk2 V c 1 t : Vec Ideal S5000x64 .f32) (ix2 p j) = (V c (Pipeline.arrRef spec2 1) : S800000x64.Idx → EReal) (ix2 ⟨t.val * 5000 + p.val, row_lt2 t p⟩ j) := by
  obtain ⟨-, -, e1r, e1c, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * p.val = t.val * 5000 + p.val; rw [e1r]; omega
  | ⟨1, _⟩ => show win2_1.index t (1 : Fin 2) * 64 + 1 * j.val = j.val; rw [e1c]; omega

theorem iblk2_2_apply (c : Dev nD) (t : Fin cfg2.N) (p : Fin 5000) (j : Fin 64) :
    (iblk2 V c 2 t : Vec Ideal S5000x64 .f32) (ix2 p j) = (V c (Pipeline.arrRef spec2 2) : S800000x64.Idx → EReal) (ix2 ⟨t.val * 5000 + p.val, row_lt2 t p⟩ j) := by
  obtain ⟨-, -, -, -, e2r, e2c, -⟩ := idx_facts2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 5000 + 1 * p.val = t.val * 5000 + p.val; rw [e2r]; omega
  | ⟨1, _⟩ => show win2_2.index t (1 : Fin 2) * 64 + 1 * j.val = j.val; rw [e2c]; omega

theorem iblk2_3_apply (c : Dev nD) (t : Fin cfg2.N) (p : Fin 5000) (j : Fin 64) :
    (iblk2 V c 3 t : Vec Ideal S5000x64 .f32) (ix2 p j) = (V c (Pipeline.arrRef spec2 3) : S800000x64.Idx → EReal) (ix2 ⟨t.val * 5000 + p.val, row_lt2 t p⟩ j) := by
  obtain ⟨-, -, -, -, -, -, e3r, e3c, -⟩ := idx_facts2 t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 5000 + 1 * p.val = t.val * 5000 + p.val; rw [e3r]; omega
  | ⟨1, _⟩ => show win2_3.index t (1 : Fin 2) * 64 + 1 * j.val = j.val; rw [e3c]; omega

theorem iblk2_4_apply (c : Dev nD) (t : Fin cfg2.N) (a : Fin 64) (b : Fin 8) :
    (iblk2 V c 4 t : Vec Ideal S64x8 .f32) (ix2 a b) = (V c main_cst : S64x8.Idx → EReal) (ix2 a b) := by
  obtain ⟨-, -, -, -, -, -, -, -, -, -, -, -, e4r, e4c, -⟩ := idx_facts2 t
  unfold iblk2
  rw [View.read_apply]
  show V c main_cst _ = V c main_cst _
  congr 1
  funext x
  apply Fin.ext
  match x with
  | ⟨0, _⟩ => show win2_4.index t (0 : Fin 2) * 64 + 1 * a.val = a.val; rw [e4r]; omega
  | ⟨1, _⟩ => show win2_4.index t (1 : Fin 2) * 8 + 1 * b.val = b.val; rw [e4c]; omega

theorem iblk2_5_apply (c : Dev nD) (t : Fin cfg2.N) (a : Fin 8) (b : Fin 64) :
    (iblk2 V c 5 t : Vec Ideal S8x64 .f32) (ix2 a b) = (V c main_cst_0 : S8x64.Idx → EReal) (ix2 a b) := by
  obtain ⟨-, -, -, -, -, -, -, -, -, -, -, -, -, -, e5r, e5c⟩ := idx_facts2 t
  unfold iblk2
  rw [View.read_apply]
  show V c main_cst_0 _ = V c main_cst_0 _
  congr 1
  funext x
  apply Fin.ext
  match x with
  | ⟨0, _⟩ => show win2_5.index t (0 : Fin 2) * 8 + 1 * a.val = a.val; rw [e5r]; omega
  | ⟨1, _⟩ => show win2_5.index t (1 : Fin 2) * 64 + 1 * b.val = b.val; rw [e5c]; omega

theorem emb2_6 (t : Fin cfg2.N) (p : Fin 5000) (q : Fin 8) :
    ((cfg2.win 6).blk t).view.emb (ix2 p q) = (ix2 ⟨t.val * 5000 + p.val, row_lt2 t p⟩ q : S800000x8.Idx) := by
  obtain ⟨-, -, -, -, -, -, -, -, e6r, e6c, -⟩ := idx_facts2 t
  funext a
  apply Fin.ext
  match a with
  | ⟨0, _⟩ => show win2_6.index t (0 : Fin 2) * 5000 + 1 * p.val = t.val * 5000 + p.val; rw [e6r]; omega
  | ⟨1, _⟩ => show win2_6.index t (1 : Fin 2) * 8 + 1 * q.val = q.val; rw [e6c]; omega

theorem emb2_7 (t : Fin cfg2.N) (p : Fin 5000) (q : Fin 64) :
    ((cfg2.win 7).blk t).view.emb (ix2 p q) = (ix2 ⟨t.val * 5000 + p.val, row_lt2 t p⟩ q : S800000x64.Idx) := by
  obtain ⟨-, -, -, -, -, -, -, -, -, -, e7r, e7c, -⟩ := idx_facts2 t
  funext a
  apply Fin.ext
  match a with
  | ⟨0, _⟩ => show win2_7.index t (0 : Fin 2) * 5000 + 1 * p.val = t.val * 5000 + p.val; rw [e7r]; omega
  | ⟨1, _⟩ => show win2_7.index t (1 : Fin 2) * 64 + 1 * q.val = q.val; rw [e7c]; omega

def G2_6 (A0 A1 A3 : S800000x64.Idx → EReal) : S800000x8.Idx → EReal := fun i =>
  Cert.Spec.edgeW (fun e j => A0 (ix2 e j)) (fun e j => A1 (ix2 e j)) (fun e j => A3 (ix2 e j)) ⟨(i 0).val, (i 0).isLt⟩ ⟨(i 1).val, (i 1).isLt⟩

def G2_7 (A0 A1 A2 A3 : S800000x64.Idx → EReal) : S800000x64.Idx → EReal := fun i =>
  Cert.Spec.edgeW (fun e j => A0 (ix2 e j)) (fun e j => A1 (ix2 e j)) (fun e j => A3 (ix2 e j)) ⟨(i 0).val, (i 0).isLt⟩ (Cert.Spec.head ⟨(i 1).val, (i 1).isLt⟩) * A2 i

set_option maxHeartbeats 400000 in
theorem flushed2_6_eq (c : Dev nD) (hG : ∀ (j : Fin 64) (h : Fin 8), V c main_cst (ix2 j h) = Cert.Spec.grp j h) (t : Fin cfg2.N) :
    (dat2 (F := Ideal) V c).flushed 6 t = ((cfg2.win 6).blk t).view.read (Elt Ideal) (G2_6 (V c (Pipeline.arrRef spec2 0)) (V c (Pipeline.arrRef spec2 1)) (V c (Pipeline.arrRef spec2 3))) := by
  show (cfg2.win 6).cut (grid2.coords t) ((dat2 V c).after 6 t) = _
  rw [after2_6]
  funext y
  obtain ⟨p, h, rfl⟩ : ∃ (p : Fin 5000) (h : Fin 8), y = ix2 p h := ⟨y 0, y 1, eq_ix2 y⟩
  rw [View.read_apply]
  show out2_6 (iblk2 V c 0 t) (iblk2 V c 1 t) (iblk2 V c 2 t) (iblk2 V c 3 t) (iblk2 V c 4 t) (iblk2 V c 5 t) (ix2 p h)
    = G2_6 (V c (Pipeline.arrRef spec2 0)) (V c (Pipeline.arrRef spec2 1)) (V c (Pipeline.arrRef spec2 3)) (((cfg2.win 6).blk t).view.emb (ix2 p h))
  rw [emb2_6 t p h]
  exact out2_6_entry _ _ _ _ _ _ _ _ _ p _ h (iblk2_0_apply V c t p) (iblk2_1_apply V c t p) (iblk2_3_apply V c t p)
    (fun j h => (iblk2_4_apply V c t j h).trans (hG j h))

set_option maxHeartbeats 400000 in
theorem flushed2_7_eq (c : Dev nD) (hG : ∀ (j : Fin 64) (h : Fin 8), V c main_cst (ix2 j h) = Cert.Spec.grp j h) (hGT : ∀ (h : Fin 8) (j : Fin 64), V c main_cst_0 (ix2 h j) = Cert.Spec.grp j h) (t : Fin cfg2.N) :
    (dat2 (F := Ideal) V c).flushed 7 t = ((cfg2.win 7).blk t).view.read (Elt Ideal) (G2_7 (V c (Pipeline.arrRef spec2 0)) (V c (Pipeline.arrRef spec2 1)) (V c (Pipeline.arrRef spec2 2)) (V c (Pipeline.arrRef spec2 3))) := by
  show (cfg2.win 7).cut (grid2.coords t) ((dat2 V c).after 7 t) = _
  rw [after2_7]
  funext y
  obtain ⟨p, j, rfl⟩ : ∃ (p : Fin 5000) (j : Fin 64), y = ix2 p j := ⟨y 0, y 1, eq_ix2 y⟩
  rw [View.read_apply]
  show out2_7 (iblk2 V c 0 t) (iblk2 V c 1 t) (iblk2 V c 2 t) (iblk2 V c 3 t) (iblk2 V c 4 t) (iblk2 V c 5 t) (ix2 p j)
    = G2_7 (V c (Pipeline.arrRef spec2 0)) (V c (Pipeline.arrRef spec2 1)) (V c (Pipeline.arrRef spec2 2)) (V c (Pipeline.arrRef spec2 3)) (((cfg2.win 7).blk t).view.emb (ix2 p j))
  rw [emb2_7 t p j]
  exact out2_7_entry _ _ _ _ _ _ _ _ _ _ p _ j (iblk2_0_apply V c t p) (iblk2_1_apply V c t p) (iblk2_3_apply V c t p) (iblk2_2_apply V c t p j)
    (fun j h => (iblk2_4_apply V c t j h).trans (hG j h)) (fun h j => (iblk2_5_apply V c t h j).trans (hGT h j))

theorem covered2_6 (i : S800000x8.Idx) : ∃ t : Fin cfg2.N, (cfg2.win 6).flush t = true ∧ i ∈ ((cfg2.win 6).blk t).view.set := by
  have hi0 : (i 0).val < 800000 := (i 0).isLt
  have hi1 : (i 1).val < 8 := (i 1).isLt
  obtain ⟨t, ht⟩ : ∃ t : Fin cfg2.N, t.val = (i 0).val / 5000 :=
    ⟨⟨(i 0).val / 5000, (by omega : (i 0).val / 5000 < 160).trans_eq N_2.symm⟩, rfl⟩
  obtain ⟨-, -, -, -, -, -, -, -, e6r, e6c, -⟩ := idx_facts2 t
  refine ⟨t, flush2_6 t, ?_⟩
  show i ∈ ((View.whole (Pipeline.arrRef spec2 6)).slice (win2_6.rect t)).set
  rw [View.set_slice_whole, Rect.mem_set_unit]
  intro a
  match a with
  | ⟨0, _⟩ => show win2_6.index t (0 : Fin 2) * 5000 ≤ (i 0).val ∧ (i 0).val < win2_6.index t (0 : Fin 2) * 5000 + 5000; rw [e6r]; omega
  | ⟨1, _⟩ => show win2_6.index t (1 : Fin 2) * 8 ≤ (i 1).val ∧ (i 1).val < win2_6.index t (1 : Fin 2) * 8 + 8; rw [e6c]; omega

theorem covered2_7 (i : S800000x64.Idx) : ∃ t : Fin cfg2.N, (cfg2.win 7).flush t = true ∧ i ∈ ((cfg2.win 7).blk t).view.set := by
  have hi0 : (i 0).val < 800000 := (i 0).isLt
  have hi1 : (i 1).val < 64 := (i 1).isLt
  obtain ⟨t, ht⟩ : ∃ t : Fin cfg2.N, t.val = (i 0).val / 5000 :=
    ⟨⟨(i 0).val / 5000, (by omega : (i 0).val / 5000 < 160).trans_eq N_2.symm⟩, rfl⟩
  obtain ⟨-, -, -, -, -, -, -, -, -, -, e7r, e7c, -⟩ := idx_facts2 t
  refine ⟨t, flush2_7 t, ?_⟩
  show i ∈ ((View.whole (Pipeline.arrRef spec2 7)).slice (win2_7.rect t)).set
  rw [View.set_slice_whole, Rect.mem_set_unit]
  intro a
  match a with
  | ⟨0, _⟩ => show win2_7.index t (0 : Fin 2) * 5000 ≤ (i 0).val ∧ (i 0).val < win2_7.index t (0 : Fin 2) * 5000 + 5000; rw [e7r]; omega
  | ⟨1, _⟩ => show win2_7.index t (1 : Fin 2) * 64 ≤ (i 1).val ∧ (i 1).val < win2_7.index t (1 : Fin 2) * 64 + 64; rw [e7c]; omega

theorem final2_w (c : Dev nD) (hG : ∀ (j : Fin 64) (h : Fin 8), V c main_cst (ix2 j h) = Cert.Spec.grp j h) (e : Fin 800000) (h : Fin 8) :
    (dat2 (F := Ideal) V c).arrAt 6 cfg2.N (ix2 e h)
      = Cert.Spec.edgeW (fun (e : Fin 800000) (j : Fin 64) => V c (Pipeline.arrRef spec2 0) (ix2 e j)) (fun e j => V c (Pipeline.arrRef spec2 1) (ix2 e j)) (fun e j => V c (Pipeline.arrRef spec2 3) (ix2 e j)) e h :=
  congrFun ((dat2 (F := Ideal) V c).arrAt_eq_of_cover 6 (G2_6 (V c (Pipeline.arrRef spec2 0)) (V c (Pipeline.arrRef spec2 1)) (V c (Pipeline.arrRef spec2 3))) (fun t _ => flushed2_6_eq V c hG t) covered2_6) (ix2 e h)

theorem final2_c (c : Dev nD) (hG : ∀ (j : Fin 64) (h : Fin 8), V c main_cst (ix2 j h) = Cert.Spec.grp j h) (hGT : ∀ (h : Fin 8) (j : Fin 64), V c main_cst_0 (ix2 h j) = Cert.Spec.grp j h) (e : Fin 800000) (j : Fin 64) :
    (dat2 (F := Ideal) V c).arrAt 7 cfg2.N (ix2 e j)
      = Cert.Spec.edgeW (fun (e : Fin 800000) (j : Fin 64) => V c (Pipeline.arrRef spec2 0) (ix2 e j)) (fun e j => V c (Pipeline.arrRef spec2 1) (ix2 e j)) (fun e j => V c (Pipeline.arrRef spec2 3) (ix2 e j)) e (Cert.Spec.head j) * V c (Pipeline.arrRef spec2 2) (ix2 e j) :=
  congrFun ((dat2 (F := Ideal) V c).arrAt_eq_of_cover 7 (G2_7 (V c (Pipeline.arrRef spec2 0)) (V c (Pipeline.arrRef spec2 1)) (V c (Pipeline.arrRef spec2 2)) (V c (Pipeline.arrRef spec2 3))) (fun t _ => flushed2_7_eq V c hG hGT t) covered2_7) (ix2 e j)

end Region

end Cert.KernelIdeal.Val

end
-- ==== Proof.LibRowGatherScatter.lean ====
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

section General
variable {α : Type} {s si t : Shape} {w : Nat}

-- A gather reads the operand where every coordinate is start + batch + offset.
theorem gather_at (d : GatherDims s si t) (x : s.Idx → α) (idx : IVec si w) (j : t.Idx) (i : s.Idx)
    (h : ∀ a, d.start j idx a + d.batchCoord j a + d.offCoord j a = (i a).val) :
    Host.gather d x idx j = x i :=
  congrArg x (funext fun a => Fin.ext (h a))

-- An update lands at i exactly when start + window is i's coordinate on every axis.
theorem resultIdx_some_iff (d : ScatterDims s si t) (j : t.Idx) (idx : IVec si w) (i : s.Idx) :
    d.resultIdx? j idx = some i ↔ ∀ a, d.start j idx a + d.window j a = ((i a).val : ℤ) := by
  unfold ScatterDims.resultIdx?
  split
  · next h =>
    rw [Option.some.injEq, funext_iff]
    refine forall_congr' fun a => ?_
    rw [Fin.ext_iff]
    show (d.start j idx a + d.window j a).toNat = (i a).val ↔ _
    have := h a
    omega
  · next h =>
    refine iff_of_false nofun fun hh => h fun a => ?_
    have := hh a
    have := (i a).isLt
    omega

end General

section Gather
variable {α : Type}

abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

-- Row e of the result is the table's row at the start word of e, read signed and clamped into the rows.
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  refine gather_at _ x idx _ _ (Fin.forall_fin_two.2 ⟨?_, Nat.zero_add _⟩)
  exact congrArg (fun k => min (idx k).toInt.toNat (N - 1))
    (funext fun b => match b with | ⟨0, _⟩ => rfl | ⟨1, _⟩ => rfl)

end Gather

section Scatter

abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

-- Update (e, q') lands at row (start word of e, read signed, not clamped) and feature q'.
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  have h0 : (rowScatter N E D wf).start (ix2 e q') idx 0 = (idx (ix2 e 0)).toInt :=
    congrArg (fun k => (idx k).toInt) (funext fun b => match b with | ⟨0, _⟩ => rfl | ⟨1, _⟩ => rfl)
  rw [resultIdx_some_iff, Fin.forall_fin_two]
  show (rowScatter N E D wf).start (ix2 e q') idx 0 + (0 : ℕ) = d.val ∧ (0 : ℤ) + (q'.val : ℕ) = q.val ↔ _
  rw [h0, Fin.ext_iff]
  omega

-- Splitting the sum over update indices by coordinates, only feature q of the edges sent to row d survives.
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  by_cases hd : (idx (ix2 e 0)).toInt = (d.val : ℤ) <;> simp [rowScatter_resultIdx_iff, hd]

end Scatter

section Broadcasts
variable {α : Type}

theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

end Broadcasts

-- A negative start word counts from the end.
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

end Cert.ReferenceIdeal.Hand

end
-- ==== Proof.KI.Collect.lean ====
import proofs.«412297_j88252987998303_2_alg».proof.Proof.Gen.KernelIdeal.Launch
import proofs.«412297_j88252987998303_2_alg».proof.Proof.Spec
import proofs.«412297_j88252987998303_2_alg».proof.Proof.LibRowGatherScatter
import Idealize.ShloMosaic.Lib.StableHlo.Run
import Idealize.ShloMosaic.Lib.IdealHost
import Idealize.ShloMosaic.Lib.StackMember
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx Idealize.ShloMosaic.StableHlo
open Cert.ReferenceIdeal.Hand

abbrev into (x3 : IVec S800000 32) (n : Fin 50000) : Finset (Fin 800000) :=
  Finset.univ.filter fun e : Fin 800000 => (x3 (ix1 e)).toInt = (n.val : ℤ)

theorem scatZero_apply {D : Nat} (wf : ScatterDims.WF ⟨2, ![50000, D]⟩ ⟨2, ![800000, 1]⟩ ⟨2, ![800000, D]⟩ [1] [0] [0] 1)
    (hz : (⟨0, ![]⟩ : Shape).BroadcastsInDim ⟨2, ![50000, D]⟩ ![])
    (x3 : IVec S800000 32) (u : FVec Ideal ⟨2, ![800000, D]⟩ .f32) (n : Fin 50000) (q : Fin D) :
    Host.scatterAdd (F := Ideal) (rowScatter 50000 800000 D wf)
        (broadcastInDim ⟨2, ![50000, D]⟩ ![] hz (constant (F := Ideal) ⟨0, ![]⟩ .f32 0x00000000#32))
        (broadcastInDim S800000x1 ![0] bcast_S800000_S800000x1_0 x3) u (ix2 n q)
      = ∑ e ∈ into x3 n, u (ix2 e q) := by
  have hidx : ∀ e : Fin 800000, (broadcastInDim S800000x1 ![0] bcast_S800000_S800000x1_0 x3) (ix2 e 0) = x3 (ix1 e) :=
    fun e => bcastCol_apply bcast_S800000_S800000x1_0 x3 e 0
  refine (rowScatterAdd_apply wf _ _ u n q).trans ?_
  rw [bcastScalar_apply, constant_apply, Ideal.ofBits_zero_f32, zero_add]
  simp only [hidx]

theorem dot_apply (l : FVec Ideal S50000x8 .f32) (g : FVec Ideal S8x64 .f32) (n : Fin 50000) (j : Fin 64) :
    Host.dotGeneral (F := Ideal) dot_S50000x8_S8x64_S50000x64_1_0_0_1_n_n none l g (ix2 n j)
      = ∑ h : Fin 8, l (ix2 n h) * g (ix2 h j) :=
  StackMember.dotGeneral_plain_apply none l g n j

def quot (x3 : IVec S800000 32) (u1 : FVec Ideal S800000x64 .f32) (u0 : FVec Ideal S800000x8 .f32)
    (g : FVec Ideal S8x64 .f32) (n : Fin 50000) (j : Fin 64) : EReal :=
  Ideal.div (∑ e ∈ into x3 n, u1 (ix2 e j)) ((∑ h : Fin 8, (∑ e ∈ into x3 n, u0 (ix2 e h)) * g (ix2 h j)) + Cert.Spec.eps)

-- With the edges' weights and weighted values in, the quotient is the specification's φ.
theorem quot_phi {x3 : IVec S800000 32} {u1 : FVec Ideal S800000x64 .f32} {u0 : FVec Ideal S800000x8 .f32} {g : FVec Ideal S8x64 .f32}
    {Q K V : Fin 50000 → Fin 64 → EReal} {E : Fin 800000 → Fin 64 → EReal} {ei : Cert.Spec.EdgeList}
    (h3 : ∀ e, x3 (ix1 e) = ei (ix2 1 e))
    (h1 : ∀ e j, u1 (ix2 e j) = Cert.Spec.weight Q K E ei e (Cert.Spec.head j) * V (Cert.Spec.node ei 0 e) j)
    (h0 : ∀ e h, u0 (ix2 e h) = Cert.Spec.weight Q K E ei e h) (hg : ∀ h j, g (ix2 h j) = Cert.Spec.grp j h)
    (n : Fin 50000) (j : Fin 64) : quot x3 u1 u0 g n j = Cert.Spec.phi Q K V E ei n j := by
  unfold quot
  rw [show into x3 n = Cert.Spec.incoming ei n from Finset.filter_congr fun e _ => by rw [h3]]
  simp only [h0, h1, hg]
  rw [Cert.Spec.sum_grp_t]
  rfl

theorem collect_apply (x3 : IVec S800000 32) (u1 : FVec Ideal S800000x64 .f32) (u0 : FVec Ideal S800000x8 .f32)
    (g : FVec Ideal S8x64 .f32) (n : Fin 50000) (j : Fin 64) :
    Host.divf (F := Ideal)
        (Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 x3) u1)
        (addf (F := Ideal)
          (Host.dotGeneral (F := Ideal) dot_S50000x8_S8x64_S50000x64_1_0_0_1_n_n none
            (Host.scatterAdd (F := Ideal) scatter_S50000x8_S800000x1_S800000x8_1_0_0_1
              (broadcastInDim S50000x8 ![] bcast_S_S50000x8 (constant (F := Ideal) S_ .f32 0x00000000#32))
              (broadcastInDim S800000x1 ![0] bcast_S800000_S800000x1_0 x3) u0) g)
          (broadcastInDim S50000x64 ![] bcast_S_S50000x64 (constant (F := Ideal) S_ .f32 0x358637BD#32))) (ix2 n j)
      = quot x3 u1 u0 g n j := by
  unfold quot Cert.Spec.eps
  refine (hostDivf_apply _ _ _).trans (congrArg₂ Ideal.div
    (scatZero_apply scatter_S50000x64_S800000x1_S800000x64_1_0_0_1_wf bcast_S_S50000x64 x3 u1 n j) ?_)
  rw [addf_apply, dot_apply, bcastScalar_apply, constant_apply]
  refine congrArg (· + Ideal.ofBits .f32 0x358637BD#32) (Finset.sum_congr rfl fun h _ => ?_)
  exact congrArg (· * g (ix2 h j)) (scatZero_apply scatter_S50000x8_S800000x1_S800000x8_1_0_0_1_wf bcast_S_S50000x8 x3 u0 n h)

variable (W : Valuation τ sig (Elt Ideal))

theorem collect3 (n : Fin 50000) (j : Fin 64) :
    (StableHlo.after hostOps3 W (Proc.devRef .tc main_v26) : FVec Ideal S50000x64 .f32) (ix2 n j)
      = quot (W (Proc.devRef .tc main_v3)) (W (Proc.devRef .tc main_v16_1)) (W (Proc.devRef .tc main_v16_0)) (W (Proc.devRef .tc main_cst_0)) n j := by
  after_results_simp
  exact collect_apply _ _ _ _ n j

theorem neg3 (i : S50000x16.Idx) :
    (StableHlo.after hostOps3 W (Proc.devRef .tc main_v27) : FVec Ideal S50000x16 .f32) i
      = Neg.neg (α := EReal) ((W (Proc.devRef .tc main_arg0) : FVec Ideal S50000x16 .f32) i) := by
  after_results
  rfl

theorem bias3 (j : Fin 192) :
    (StableHlo.after hostOps3 W (Proc.devRef .tc main_v28) : FVec Ideal S1x192 .f32) (ix2 0 j)
      = (W (Proc.devRef .tc main_v5) : FVec Ideal S192 .f32) (ix1 j) := by
  after_results
  exact shapeCast_a_1a_apply _ _ 0 j

theorem collect5 (n : Fin 50000) (j : Fin 64) :
    (StableHlo.after hostOps5 W (Proc.devRef .tc main_v46) : FVec Ideal S50000x64 .f32) (ix2 n j)
      = quot (W (Proc.devRef .tc main_v3)) (W (Proc.devRef .tc main_v36_1)) (W (Proc.devRef .tc main_v36_0)) (W (Proc.devRef .tc main_cst_0)) n j := by
  after_results_simp
  exact collect_apply _ _ _ _ n j

theorem sum5 (n : Fin 50000) (j : Fin 64) :
    (StableHlo.after hostOps5 W (Proc.devRef .tc main_v47) : FVec Ideal S50000x64 .f32) (ix2 n j)
      = HAdd.hAdd (α := EReal) (β := EReal) (γ := EReal) ((W (Proc.devRef .tc main_v26) : FVec Ideal S50000x64 .f32) (ix2 n j))
          ((StableHlo.after hostOps5 W (Proc.devRef .tc main_v46) : FVec Ideal S50000x64 .f32) (ix2 n j)) := by
  after_results_simp
  rfl

theorem bias5a (k : Fin 128) :
    (StableHlo.after hostOps5 W (Proc.devRef .tc main_v48) : FVec Ideal S1x128 .f32) (ix2 0 k)
      = (W (Proc.devRef .tc main_arg12) : FVec Ideal S128 .f32) (ix1 k) := by
  after_results
  exact shapeCast_a_1a_apply _ _ 0 k

theorem bias5b (o : Fin 64) :
    (StableHlo.after hostOps5 W (Proc.devRef .tc main_v49) : FVec Ideal S1x64 .f32) (ix2 0 o)
      = (W (Proc.devRef .tc main_arg14) : FVec Ideal S64 .f32) (ix1 o) := by
  after_results
  exact shapeCast_a_1a_apply _ _ 0 o

end Cert.KernelIdeal.Val

end
-- ==== Proof.KI.GMat.lean ====
import proofs.«412297_j88252987998303_2_alg».proof.KernelIdeal
import proofs.«412297_j88252987998303_2_alg».proof.Proof.Spec
import Idealize.ShloMosaic.Lib.IdealHost

namespace Cert.KernelIdeal.Val

open Idealize.ShloMosaic Idealize.ShloMosaic.ValueIdx

theorem lit0_word : ∀ i : Fin 512, Cert.KernelIdeal.lit0 i = if (i.val / 8) / 8 = i.val % 8 then 0x3F800000#32 else 0#32 := by
  decide +kernel

theorem lit1_word : ∀ i : Fin 512, Cert.KernelIdeal.lit1 i = if (i.val % 64) / 8 = i.val / 64 then 0x3F800000#32 else 0#32 := by
  decide +kernel

theorem ofBits_ite (p : Prop) [Decidable p] :
    Ideal.ofBits .f32 (if p then 0x3F800000#32 else 0#32) = if p then (1 : EReal) else 0 := by
  by_cases hp : p
  · rw [if_pos hp, if_pos hp]; exact Ideal.ofBits_one_f32
  · rw [if_neg hp, if_neg hp]; exact Ideal.ofBits_zero_f32

theorem lit0_grp (j : Fin 64) (h : Fin 8) :
    Ideal.ofBits .f32 (Cert.KernelIdeal.lit0 (Cert.KernelIdeal.S64x8.rowMajor (ix2 j h))) = Cert.Spec.grp j h := by
  have hv : (Cert.KernelIdeal.S64x8.rowMajor (ix2 j h)).val = j.val * 8 + h.val := by
    rw [Shape.rowMajor_val_two]; rfl
  have hj := j.isLt
  have hh := h.isLt
  have h1 : (j.val * 8 + h.val) / 8 = j.val := by omega
  have h2 : (j.val * 8 + h.val) % 8 = h.val := by omega
  refine (congrArg (Ideal.ofBits .f32) (lit0_word _)).trans ?_
  rw [hv, h1, h2]
  exact ofBits_ite _

theorem lit1_grp (h : Fin 8) (j : Fin 64) :
    Ideal.ofBits .f32 (Cert.KernelIdeal.lit1 (Cert.KernelIdeal.S8x64.rowMajor (ix2 h j))) = Cert.Spec.grp j h := by
  have hv : (Cert.KernelIdeal.S8x64.rowMajor (ix2 h j)).val = h.val * 64 + j.val := by
    rw [Shape.rowMajor_val_two]; rfl
  have hj := j.isLt
  have hh := h.isLt
  have h1 : (h.val * 64 + j.val) % 64 = j.val := by omega
  have h2 : (h.val * 64 + j.val) / 64 = h.val := by omega
  refine (congrArg (Ideal.ofBits .f32) (lit1_word _)).trans ?_
  rw [hv, h1, h2]
  exact ofBits_ite _

end Cert.KernelIdeal.Val
-- ==== Proof.KI.Tables.lean ====
import proofs.«412297_j88252987998303_2_alg».proof.Proof.Gen.KernelIdeal.Launch
import proofs.«412297_j88252987998303_2_alg».proof.Proof.Spec
import proofs.«412297_j88252987998303_2_alg».proof.Proof.KI.GMat
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.KernelIdeal.Val

open Cert.KernelIdeal Cert.KernelIdeal.Gen Idealize.ShloMosaic Idealize.ShloMosaic.ValueIdx Idealize.ShloMosaic.StableHlo

variable (W : Valuation τ sig (Elt Ideal))

omit W in
theorem cat3_cols_apply {α : Type} (x0 x1 x2 : S16x64.Idx → α)
    (hc : Shape.Concatenates [S16x64, S16x64, S16x64] S16x192 1) (k : Fin 16) (j : Fin 192) :
    concatenate S16x192 1 [⟨S16x64, x0⟩, ⟨S16x64, x1⟩, ⟨S16x64, x2⟩] hc (ix2 k j)
      = if h : j.val < 64 then x0 (ix2 k ⟨j.val, h⟩)
        else if h2 : j.val < 128 then x1 (ix2 k ⟨j.val - 64, by omega⟩)
        else x2 (ix2 k ⟨j.val - 128, by have := j.isLt; omega⟩) := by
  have hj := j.isLt
  by_cases h1 : j.val < 64
  · rw [dif_pos h1]
    exact concatenate_apply_piece 1 [⟨S16x64, x0⟩, ⟨S16x64, x1⟩, ⟨S16x64, x2⟩] hc (ix2 k j) 0 (by show (0 : ℕ) < 3; omega) S16x64 x0 rfl rfl 0 rfl (ix2 k ⟨j.val, h1⟩)
      (fun b hb => by
        match b with
        | ⟨0, _⟩ => rfl
        | ⟨1, _⟩ => exact absurd rfl hb)
      (by show 0 + j.val = j.val; omega)
  · rw [dif_neg h1]
    by_cases h2 : j.val < 128
    · rw [dif_pos h2]
      exact concatenate_apply_piece 1 [⟨S16x64, x0⟩, ⟨S16x64, x1⟩, ⟨S16x64, x2⟩] hc (ix2 k j) 1 (by show (1 : ℕ) < 3; omega) S16x64 x1 rfl rfl 64 rfl (ix2 k ⟨j.val - 64, by omega⟩)
        (fun b hb => by
          match b with
          | ⟨0, _⟩ => rfl
          | ⟨1, _⟩ => exact absurd rfl hb)
        (by show 64 + (j.val - 64) = j.val; omega)
    · rw [dif_neg h2]
      exact concatenate_apply_piece 1 [⟨S16x64, x0⟩, ⟨S16x64, x1⟩, ⟨S16x64, x2⟩] hc (ix2 k j) 2 (by show (2 : ℕ) < 3; omega) S16x64 x2 rfl rfl 128 rfl (ix2 k ⟨j.val - 128, by omega⟩)
        (fun b hb => by
          match b with
          | ⟨0, _⟩ => rfl
          | ⟨1, _⟩ => exact absurd rfl hb)
        (by show 128 + (j.val - 128) = j.val; omega)

omit W in
theorem cat3_vec_apply {α : Type} (x0 x1 x2 : S64.Idx → α)
    (hc : Shape.Concatenates [S64, S64, S64] S192 0) (j : Fin 192) :
    concatenate S192 0 [⟨S64, x0⟩, ⟨S64, x1⟩, ⟨S64, x2⟩] hc (ix1 j)
      = if h : j.val < 64 then x0 (ix1 ⟨j.val, h⟩)
        else if h2 : j.val < 128 then x1 (ix1 ⟨j.val - 64, by omega⟩)
        else x2 (ix1 ⟨j.val - 128, by have := j.isLt; omega⟩) := by
  have hj := j.isLt
  by_cases h1 : j.val < 64
  · rw [dif_pos h1]
    exact concatenate_apply_piece 0 [⟨S64, x0⟩, ⟨S64, x1⟩, ⟨S64, x2⟩] hc (ix1 j) 0 (by show (0 : ℕ) < 3; omega) S64 x0 rfl rfl 0 rfl (ix1 ⟨j.val, h1⟩)
      (fun b hb => by
        match b with
        | ⟨0, _⟩ => exact absurd rfl hb)
      (by show 0 + j.val = j.val; omega)
  · rw [dif_neg h1]
    by_cases h2 : j.val < 128
    · rw [dif_pos h2]
      exact concatenate_apply_piece 0 [⟨S64, x0⟩, ⟨S64, x1⟩, ⟨S64, x2⟩] hc (ix1 j) 1 (by show (1 : ℕ) < 3; omega) S64 x1 rfl rfl 64 rfl (ix1 ⟨j.val - 64, by omega⟩)
        (fun b hb => by
          match b with
          | ⟨0, _⟩ => exact absurd rfl hb)
        (by show 64 + (j.val - 64) = j.val; omega)
    · rw [dif_neg h2]
      exact concatenate_apply_piece 0 [⟨S64, x0⟩, ⟨S64, x1⟩, ⟨S64, x2⟩] hc (ix1 j) 2 (by show (2 : ℕ) < 3; omega) S64 x2 rfl rfl 128 rfl (ix1 ⟨j.val - 128, by omega⟩)
        (fun b hb => by
          match b with
          | ⟨0, _⟩ => exact absurd rfl hb)
        (by show 128 + (j.val - 128) = j.val; omega)

theorem src0 (e : Fin 800000) :
    StableHlo.after (hostOps0 (F := Ideal)) W (Proc.devRef .tc main_v1) (ix1 e) = W (Proc.devRef .tc main_arg2) (ix2 0 e) := by
  dsimp only [hostOps0]; after_results
  show shapeCast S800000 (extractStridedSlice S1x800000 ![0, 0] (W (Proc.devRef .tc main_arg2)) slices_S2x800000_S1x800000_0_0)
    shapeCasts_S1x800000_S800000 (ix1 e) = _
  rw [shapeCast_1a_a_apply]
  exact slice2_axis0_apply 0 _ _ 0 e 0 rfl

theorem dst0 (e : Fin 800000) :
    StableHlo.after (hostOps0 (F := Ideal)) W (Proc.devRef .tc main_v3) (ix1 e) = W (Proc.devRef .tc main_arg2) (ix2 1 e) := by
  dsimp only [hostOps0]; after_results
  show shapeCast S800000 (extractStridedSlice S1x800000 ![1, 0] (W (Proc.devRef .tc main_arg2)) slices_S2x800000_S1x800000_1_0)
    shapeCasts_S1x800000_S800000 (ix1 e) = _
  rw [shapeCast_1a_a_apply]
  exact slice2_axis0_apply 1 _ _ 0 e 1 rfl

theorem wqkv0 (k : Fin 16) (j : Fin 192) :
    StableHlo.after (hostOps0 (F := Ideal)) W (Proc.devRef .tc main_v4) (ix2 k j)
      = if h : j.val < 64 then W (Proc.devRef .tc main_arg3) (ix2 k ⟨j.val, h⟩)
        else if h2 : j.val < 128 then W (Proc.devRef .tc main_arg5) (ix2 k ⟨j.val - 64, by omega⟩)
        else W (Proc.devRef .tc main_arg7) (ix2 k ⟨j.val - 128, by have := j.isLt; omega⟩) := by
  dsimp only [hostOps0]; after_results
  dsimp only [Matrix.cons_val_zero, Matrix.cons_val_one, Matrix.cons_val]
  after_results_simp
  exact cat3_cols_apply _ _ _ _ k j

theorem bqkv0 (j : Fin 192) :
    StableHlo.after (hostOps0 (F := Ideal)) W (Proc.devRef .tc main_v5) (ix1 j)
      = if h : j.val < 64 then W (Proc.devRef .tc main_arg4) (ix1 ⟨j.val, h⟩)
        else if h2 : j.val < 128 then W (Proc.devRef .tc main_arg6) (ix1 ⟨j.val - 64, by omega⟩)
        else W (Proc.devRef .tc main_arg8) (ix1 ⟨j.val - 128, by have := j.isLt; omega⟩) := by
  dsimp only [hostOps0]; after_results
  dsimp only [Matrix.cons_val_zero, Matrix.cons_val_one, Matrix.cons_val]
  after_results_simp
  exact cat3_vec_apply _ _ _ _ j

theorem be0 (j : Fin 64) :
    StableHlo.after (hostOps0 (F := Ideal)) W (Proc.devRef .tc main_v6) (ix2 0 j) = W (Proc.devRef .tc main_arg10) (ix1 j) := by
  dsimp only [hostOps0]; after_results
  show shapeCast S1x64 (W (Proc.devRef .tc main_arg10)) shapeCasts_S64_S1x64 (ix2 0 j) = _
  exact shapeCast_a_1a_apply _ _ 0 j

theorem g0 (j : Fin 64) (h : Fin 8) :
    StableHlo.after (hostOps0 (F := Ideal)) W (Proc.devRef .tc main_cst) (ix2 j h) = Cert.Spec.grp j h := by
  dsimp only [hostOps0]; after_results
  exact lit0_grp j h

theorem gt0 (h : Fin 8) (j : Fin 64) :
    StableHlo.after (hostOps0 (F := Ideal)) W (Proc.devRef .tc main_cst_0) (ix2 h j) = Cert.Spec.grp j h := by
  dsimp only [hostOps0]; after_results
  exact lit1_grp h j

theorem bias1 (j : Fin 192) :
    StableHlo.after (hostOps1 (F := Ideal)) W (Proc.devRef .tc main_v8) (ix2 0 j) = W (Proc.devRef .tc main_v5) (ix1 j) := by
  dsimp only [hostOps1]; after_results
  show shapeCast S1x192 (W (Proc.devRef .tc main_v5)) shapeCasts_S192_S1x192 (ix2 0 j) = _
  exact shapeCast_a_1a_apply _ _ 0 j

theorem q2 (n : Fin 50000) (j : Fin 64) :
    StableHlo.after (hostOps2 (F := Ideal)) W (Proc.devRef .tc main_v10) (ix2 n j) = W (Proc.devRef .tc main_v9) (ix2 n ⟨j.val, by omega⟩) := by
  dsimp only [hostOps2]; after_results
  exact slice2_axis1_apply 0 _ _ n j _ (by show j.val = 0 + j.val; omega)

theorem k2 (n : Fin 50000) (j : Fin 64) :
    StableHlo.after (hostOps2 (F := Ideal)) W (Proc.devRef .tc main_v11) (ix2 n j) = W (Proc.devRef .tc main_v9) (ix2 n ⟨j.val + 64, by omega⟩) := by
  dsimp only [hostOps2]; after_results
  exact slice2_axis1_apply 64 _ _ n j _ (by show j.val + 64 = 64 + j.val; omega)

theorem v2 (n : Fin 50000) (j : Fin 64) :
    StableHlo.after (hostOps2 (F := Ideal)) W (Proc.devRef .tc main_v12) (ix2 n j) = W (Proc.devRef .tc main_v9) (ix2 n ⟨j.val + 128, by omega⟩) := by
  dsimp only [hostOps2]; after_results
  exact slice2_axis1_apply 128 _ _ n j _ (by show j.val + 128 = 128 + j.val; omega)

theorem q4 (n : Fin 50000) (j : Fin 64) :
    StableHlo.after (hostOps4 (F := Ideal)) W (Proc.devRef .tc main_v30) (ix2 n j) = W (Proc.devRef .tc main_v29) (ix2 n ⟨j.val, by omega⟩) := by
  dsimp only [hostOps4]; after_results
  exact slice2_axis1_apply 0 _ _ n j _ (by show j.val = 0 + j.val; omega)

theorem k4 (n : Fin 50000) (j : Fin 64) :
    StableHlo.after (hostOps4 (F := Ideal)) W (Proc.devRef .tc main_v31) (ix2 n j) = W (Proc.devRef .tc main_v29) (ix2 n ⟨j.val + 64, by omega⟩) := by
  dsimp only [hostOps4]; after_results
  exact slice2_axis1_apply 64 _ _ n j _ (by show j.val + 64 = 64 + j.val; omega)

theorem v4 (n : Fin 50000) (j : Fin 64) :
    StableHlo.after (hostOps4 (F := Ideal)) W (Proc.devRef .tc main_v32) (ix2 n j) = W (Proc.devRef .tc main_v29) (ix2 n ⟨j.val + 128, by omega⟩) := by
  dsimp only [hostOps4]; after_results
  exact slice2_axis1_apply 128 _ _ n j _ (by show j.val + 128 = 128 + j.val; omega)

end Cert.KernelIdeal.Val

end
-- ==== Proof.KI.Take.lean ====
import proofs.«412297_j88252987998303_2_alg».proof.Proof.Gen.KernelIdeal.Launch
import proofs.«412297_j88252987998303_2_alg».proof.Proof.LibRowGatherScatter
import Idealize.ShloMosaic.Lib.StableHlo.Run
import Idealize.ShloMosaic.Lib.ReduceAll
import Idealize.ShloMosaic.Lib.ValueIdx
import Idealize.ShloMosaic.Lib.Pipeline.Value

set_option Elab.async false

noncomputable section

namespace Cert.KernelIdeal.Val

open Cert.KernelIdeal Cert.KernelIdeal.Gen
open Idealize.ShloMosaic Idealize.ShloMosaic.ValueIdx Idealize.ShloMosaic.StableHlo
open Cert.ReferenceIdeal.Hand

def takeCol (I : IVec S800000 32) : IVec S800000x1 32 :=
  broadcastInDim S800000x1 ![0] bcast_S800000_S800000x1_0
    (select (cmpi .slt I (broadcastInDim S800000 ![] bcast_S_S800000 (constantI S_ 32 0#32)))
      (addi I (broadcastInDim S800000 ![] bcast_S_S800000 (constantI S_ 32 50000#32))) I)

def takeMask (I : IVec S800000 32) : IVec S800000 1 :=
  Host.reduce IntOp.andi
    (andi (cmpi .sge (takeCol I) (broadcastInDim S800000x1 ![] bcast_S_S800000x1 (constantI S_ 32 0#32)))
      (cmpi .sle (takeCol I) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

def takeVal (T : FVec Ideal S50000x64 .f32) (I : IVec S800000 32) : FVec Ideal S800000x64 .f32 :=
  select (broadcastInDim S800000x64 ![0] bcast_S800000_S800000x64_0 (takeMask I))
    (Host.gather gather_S50000x64_S800000x1_S800000x64_1_0_n_n_0_1_164 T (takeCol I))
    (broadcastInDim S800000x64 ![] bcast_S_S800000x64 (constant (F := Ideal) S_ .f32 0x7FC00000#32))

theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_one x hx l

theorem bcastFeat0_apply {α : Type} (v : S800000.Idx → α) (e : Fin 800000) (j : Fin 64) :
    broadcastInDim S800000x64 ![0] bcast_S800000_S800000x64_0 v (ix2 e j) = v (ix1 e) := by
  refine broadcastInDim_apply _ bcast_S800000_S800000x64_0 v _ (ix1 e) fun a => ?_
  match a with
  | ⟨0, _⟩ =>
    show e.val = if 800000 = 1 then 0 else e.val
    rfl

section Apply
variable (I : IVec S800000 32)
  (hI : ∀ e : Fin 800000, 0 ≤ (I (ix1 e)).toInt ∧ (I (ix1 e)).toInt < 50000)
include hI

theorem takeCol_apply (e : Fin 800000) (z : Fin 1) : takeCol I (ix2 e z) = I (ix1 e) := by
  unfold takeCol
  rw [bcastCol_apply]
  show Scalar.select (IntOp.cmpi .slt (I (ix1 e)) 0#32) (IntOp.addi (I (ix1 e)) 50000#32) (I (ix1 e)) = _
  rw [wrap_select, if_neg]
  have := (hI e).1
  omega

theorem takeMask_apply (e : Fin 800000) : takeMask I (ix1 e) = 1#1 := by
  unfold takeMask
  rw [Host.reduce_eq_foldl]
  refine foldl_andi_one _ (fun i => ?_) _
  obtain ⟨e', z, rfl⟩ : ∃ (e' : Fin 800000) (z : Fin 1), i = ix2 e' z := ⟨i 0, i 1, eq_ix2 i⟩
  show IntOp.andi (IntOp.cmpi .sge (takeCol I (ix2 e' z)) 0#32) (IntOp.cmpi .sle (takeCol I (ix2 e' z)) 49999#32) = 1#1
  rw [takeCol_apply I hI e' z]
  refine IntOp.andi_eq_one.2 ⟨IntOp.cmpi_sge.2 ?_, IntOp.cmpi_sle.2 ?_⟩
  · have h0 : (0#32 : BitVec 32).toInt = 0 := by decide
    rw [h0]
    exact (hI e').1
  · have h1 : (49999#32 : BitVec 32).toInt = 49999 := by decide
    rw [h1]
    have := (hI e').2
    omega

theorem takeVal_apply (T : FVec Ideal S50000x64 .f32) (e : Fin 800000) (j : Fin 64) :
    takeVal T I (ix2 e j) = T (ix2 ⟨min (I (ix1 e)).toInt.toNat 49999, by omega⟩ j) := by
  unfold takeVal
  rw [select_apply, bcastFeat0_apply, takeMask_apply I hI e, select_one]
  exact rowGather_apply_of_eq (by decide) gather_S50000x64_S800000x1_S800000x64_1_0_n_n_0_1_164_wf T _ e j
    (I (ix1 e)) (takeCol_apply I hI e 0)

end Apply

variable (W : Valuation τ sig (Elt Ideal))

theorem ofBuf_toBuf {Val : EltTy → Type} {sg : RefSig} {T : BufTy} (x : TRef sg T) (v : T.Contents Val) :
    x.ofBuf (x.toBuf v) = v := by
  obtain ⟨r, h, h2, h3⟩ := x
  subst h
  rfl

set_option maxHeartbeats 1000000 in
set_option maxRecDepth 1000000 in
theorem run_2_1 :
    (StableHlo.after hostOps2_1 W (Proc.devRef .tc main_v13) : FVec Ideal S800000x64 .f32)
      = takeVal (W (Proc.devRef .tc main_v11)) (W (Proc.devRef .tc main_v1)) := by
  unfold hostOps2_1
  after_results_simp
  simp only [ofBuf_toBuf]
  unfold takeVal takeMask takeCol
  rfl

set_option maxHeartbeats 1000000 in
set_option maxRecDepth 1000000 in
theorem run_2_2 :
    (StableHlo.after hostOps2_2 W (Proc.devRef .tc main_v14) : FVec Ideal S800000x64 .f32)
      = takeVal (W (Proc.devRef .tc main_v10)) (W (Proc.devRef .tc main_v3)) := by
  unfold hostOps2_2
  after_results_simp
  simp only [ofBuf_toBuf]
  unfold takeVal takeMask takeCol
  rfl

set_option maxHeartbeats 1000000 in
set_option maxRecDepth 1000000 in
theorem run_2_3 :
    (StableHlo.after hostOps2_3 W (Proc.devRef .tc main_v15) : FVec Ideal S800000x64 .f32)
      = takeVal (W (Proc.devRef .tc main_v12)) (W (Proc.devRef .tc main_v1)) := by
  unfold hostOps2_3
  after_results_simp
  simp only [ofBuf_toBuf]
  unfold takeVal takeMask takeCol
  rfl

set_option maxHeartbeats 1000000 in
set_option maxRecDepth 1000000 in
theorem run_4_1 :
    (StableHlo.after hostOps4_1 W (Proc.devRef .tc main_v33) : FVec Ideal S800000x64 .f32)
      = takeVal (W (Proc.devRef .tc main_v31)) (W (Proc.devRef .tc main_v1)) := by
  unfold hostOps4_1
  after_results_simp
  simp only [ofBuf_toBuf]
  unfold takeVal takeMask takeCol
  rfl

set_option maxHeartbeats 1000000 in
set_option maxRecDepth 1000000 in
theorem run_4_2 :
    (StableHlo.after hostOps4_2 W (Proc.devRef .tc main_v34) : FVec Ideal S800000x64 .f32)
      = takeVal (W (Proc.devRef .tc main_v30)) (W (Proc.devRef .tc main_v3)) := by
  unfold hostOps4_2
  after_results_simp
  simp only [ofBuf_toBuf]
  unfold takeVal takeMask takeCol
  rfl

set_option maxHeartbeats 1000000 in
set_option maxRecDepth 1000000 in
theorem run_4_3 :
    (StableHlo.after hostOps4_3 W (Proc.devRef .tc main_v35) : FVec Ideal S800000x64 .f32)
      = takeVal (W (Proc.devRef .tc main_v32)) (W (Proc.devRef .tc main_v1)) := by
  unfold hostOps4_3
  after_results_simp
  simp only [ofBuf_toBuf]
  unfold takeVal takeMask takeCol
  rfl

end Cert.KernelIdeal.Val

end
-- ==== Proof.KI.Glue1.lean ====
import proofs.«412297_j88252987998303_2_alg».proof.Proof.KI.Run
import proofs.«412297_j88252987998303_2_alg».proof.Proof.Spec
import proofs.«412297_j88252987998303_2_alg».proof.Proof.KI.Val0
import proofs.«412297_j88252987998303_2_alg».proof.Proof.KI.Val1
import proofs.«412297_j88252987998303_2_alg».proof.Proof.KI.Val2
import proofs.«412297_j88252987998303_2_alg».proof.Proof.KI.Collect
import proofs.«412297_j88252987998303_2_alg».proof.Proof.KI.Tables
import proofs.«412297_j88252987998303_2_alg».proof.Proof.KI.Take
import Idealize.ShloMosaic.Lib.ValueIdx
import Idealize.ShloMosaic.Lib.StableHlo.Run
import Idealize.ShloMosaic.PureOps.Ideal

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)
open Cert.Spec (m1 m2)

def qcol (j : Fin 64) : Fin 192 := ⟨j.val, by omega⟩
def kcol (j : Fin 64) : Fin 192 := ⟨j.val + 64, by omega⟩
def vcol (j : Fin 64) : Fin 192 := ⟨j.val + 128, by omega⟩

variable (m : (ℓ : Loc nD τ sig) → Buf (Elt Ideal) ℓ) (ρ : Dev nD → PrngReg) (c : Dev nD)

theorem lin_third {n p o o' : ℕ} {x x' : Fin n → Fin p → EReal} {T : Fin p → Fin o → EReal} {b : Fin o → EReal}
    {W : Fin p → Fin o' → EReal} {w : Fin o' → EReal} (col : Fin o' → Fin o)
    (hx : ∀ i k, x i k = x' i k) (hT : ∀ k j, T k (col j) = W k j) (hb : ∀ j, b (col j) = w j) (i : Fin n) (j : Fin o') :
    Cert.Spec.lin x T b i (col j) = Cert.Spec.lin x' W w i j := by
  unfold Cert.Spec.lin
  rw [hb]
  exact congrArg (· + w j) (Finset.sum_congr rfl fun k _ => by rw [hx, hT])

theorem edgeW_congr {Ks Ks' Qd Qd' Ee Ee' : Fin 800000 → Fin 64 → EReal}
    (hK : ∀ e j, Ks e j = Ks' e j) (hQ : ∀ e j, Qd e j = Qd' e j) (hE : ∀ e j, Ee e j = Ee' e j) (e : Fin 800000) (h : Fin 8) :
    Cert.Spec.edgeW Ks Qd Ee e h = Cert.Spec.edgeW Ks' Qd' Ee' e h := by
  unfold Cert.Spec.edgeW
  simp only [hK, hQ, hE]

abbrev sQ : Fin 50000 → Fin 64 → EReal :=
  Cert.Spec.lin (m2 (m ((c : Thread nD τ).loc main_arg0))) (m2 (m ((c : Thread nD τ).loc main_arg3))) (m1 (m ((c : Thread nD τ).loc main_arg4)))
abbrev sK : Fin 50000 → Fin 64 → EReal :=
  Cert.Spec.lin (m2 (m ((c : Thread nD τ).loc main_arg0))) (m2 (m ((c : Thread nD τ).loc main_arg5))) (m1 (m ((c : Thread nD τ).loc main_arg6)))
abbrev sV : Fin 50000 → Fin 64 → EReal :=
  Cert.Spec.lin (m2 (m ((c : Thread nD τ).loc main_arg0))) (m2 (m ((c : Thread nD τ).loc main_arg7))) (m1 (m ((c : Thread nD τ).loc main_arg8)))
abbrev sE : Fin 800000 → Fin 64 → EReal :=
  Cert.Spec.lin (m2 (m ((c : Thread nD τ).loc main_arg1))) (m2 (m ((c : Thread nD τ).loc main_arg9))) (m1 (m ((c : Thread nD τ).loc main_arg10)))

abbrev sEi : Cert.Spec.EdgeList := m ((c : Thread nD τ).loc main_arg2)

theorem v1_at1 (e : Fin 800000) :
    W1 m ρ c (Proc.devRef .tc main_v1) (ix1 e) = m ((c : Thread nD τ).loc main_arg2) (ix2 0 e) :=
  src0 (W0 m ρ c) e
theorem v3_at1 (e : Fin 800000) :
    W1 m ρ c (Proc.devRef .tc main_v3) (ix1 e) = m ((c : Thread nD τ).loc main_arg2) (ix2 1 e) :=
  dst0 (W0 m ρ c) e

theorem cst_at1 (j : Fin 64) (h : Fin 8) : W1 m ρ c (Proc.devRef .tc main_cst) (ix2 j h) = Cert.Spec.grp j h :=
  g0 (W0 m ρ c) j h
theorem cst0_at1 (h : Fin 8) (j : Fin 64) : W1 m ρ c (Proc.devRef .tc main_cst_0) (ix2 h j) = Cert.Spec.grp j h :=
  gt0 (W0 m ρ c) h j

theorem v4_q_at1 (k : Fin 16) (j : Fin 64) :
    W1 m ρ c (Proc.devRef .tc main_v4) (ix2 k (qcol j)) = m ((c : Thread nD τ).loc main_arg3) (ix2 k j) :=
  (wqkv0 (W0 m ρ c) k (qcol j)).trans (dif_pos (show (qcol j).val < 64 from j.isLt))
theorem v4_k_at1 (k : Fin 16) (j : Fin 64) :
    W1 m ρ c (Proc.devRef .tc main_v4) (ix2 k (kcol j)) = m ((c : Thread nD τ).loc main_arg5) (ix2 k j) := by
  have h1 : ¬ (kcol j).val < 64 := by show ¬ j.val + 64 < 64; omega
  have h2 : (kcol j).val < 128 := by show j.val + 64 < 128; omega
  refine (wqkv0 (W0 m ρ c) k (kcol j)).trans ((dif_neg h1).trans ((dif_pos h2).trans ?_))
  exact congrArg (fun i : Fin 64 => m ((c : Thread nD τ).loc main_arg5) (ix2 k i)) (Fin.ext (by show j.val + 64 - 64 = j.val; omega))
theorem v4_v_at1 (k : Fin 16) (j : Fin 64) :
    W1 m ρ c (Proc.devRef .tc main_v4) (ix2 k (vcol j)) = m ((c : Thread nD τ).loc main_arg7) (ix2 k j) := by
  have h1 : ¬ (vcol j).val < 64 := by show ¬ j.val + 128 < 64; omega
  have h2 : ¬ (vcol j).val < 128 := by show ¬ j.val + 128 < 128; omega
  refine (wqkv0 (W0 m ρ c) k (vcol j)).trans ((dif_neg h1).trans ((dif_neg h2).trans ?_))
  exact congrArg (fun i : Fin 64 => m ((c : Thread nD τ).loc main_arg7) (ix2 k i)) (Fin.ext (by show j.val + 128 - 128 = j.val; omega))

theorem v5_q_at1 (j : Fin 64) :
    W1 m ρ c (Proc.devRef .tc main_v5) (ix1 (qcol j)) = m ((c : Thread nD τ).loc main_arg4) (ix1 j) :=
  (bqkv0 (W0 m ρ c) (qcol j)).trans (dif_pos (show (qcol j).val < 64 from j.isLt))
theorem v5_k_at1 (j : Fin 64) :
    W1 m ρ c (Proc.devRef .tc main_v5) (ix1 (kcol j)) = m ((c : Thread nD τ).loc main_arg6) (ix1 j) := by
  have h1 : ¬ (kcol j).val < 64 := by show ¬ j.val + 64 < 64; omega
  have h2 : (kcol j).val < 128 := by show j.val + 64 < 128; omega
  refine (bqkv0 (W0 m ρ c) (kcol j)).trans ((dif_neg h1).trans ((dif_pos h2).trans ?_))
  exact congrArg (fun i : Fin 64 => m ((c : Thread nD τ).loc main_arg6) (ix1 i)) (Fin.ext (by show j.val + 64 - 64 = j.val; omega))
theorem v5_v_at1 (j : Fin 64) :
    W1 m ρ c (Proc.devRef .tc main_v5) (ix1 (vcol j)) = m ((c : Thread nD τ).loc main_arg8) (ix1 j) := by
  have h1 : ¬ (vcol j).val < 64 := by show ¬ j.val + 128 < 64; omega
  have h2 : ¬ (vcol j).val < 128 := by show ¬ j.val + 128 < 128; omega
  refine (bqkv0 (W0 m ρ c) (vcol j)).trans ((dif_neg h1).trans ((dif_neg h2).trans ?_))
  exact congrArg (fun i : Fin 64 => m ((c : Thread nD τ).loc main_arg8) (ix1 i)) (Fin.ext (by show j.val + 128 - 128 = j.val; omega))

theorem v6_at1 (j : Fin 64) :
    W1 m ρ c (Proc.devRef .tc main_v6) (ix2 0 j) = m ((c : Thread nD τ).loc main_arg10) (ix1 j) :=
  be0 (W0 m ρ c) j

theorem arg_at1 (r : Ref sig .tc) (h : r ∉ hostOps0_W) :
    W1 m ρ c (Proc.devRef .tc r) = m ((c : Thread nD τ).loc r) :=
  (W1_of m ρ c r h).trans (W0_eq m ρ c r)

theorem v7_at2 (e : Fin 800000) (j : Fin 64) : W2 m ρ c (Proc.devRef .tc main_v7) (ix2 e j) = sE m c e j := by
  have e1 : W2 m ρ c (Proc.devRef .tc main_v7) = (dat0 (F := Ideal) (V1 m ρ) c).arrAt 3 cfg0.N := W2_arr m ρ c 3
  rw [e1, final0]
  exact lin_third id
    (fun e k => congrFun (arg_at1 m ρ c main_arg1 (by decide)) (ix2 e k))
    (fun k j => congrFun (arg_at1 m ρ c main_arg9 (by decide)) (ix2 k j))
    (fun j => v6_at1 m ρ c j) e j

theorem at3_of1 (r : Ref sig .tc) (h2 : ∀ w, Pipeline.arrRef spec0 w ≠ r) (h3 : r ∉ hostOps1_W) :
    W3 m ρ c (Proc.devRef .tc r) = W1 m ρ c (Proc.devRef .tc r) :=
  (W3_of m ρ c r h3).trans (W2_of_ne m ρ c r h2)

theorem v8_at3 (j : Fin 192) :
    W3 m ρ c (Proc.devRef .tc main_v8) (ix2 0 j) = W1 m ρ c (Proc.devRef .tc main_v5) (ix1 j) :=
  (bias1 (W2 m ρ c) j).trans (congrFun (W2_of_ne m ρ c main_v5 (by decide)) (ix1 j))
theorem v4_at3 : W3 m ρ c (Proc.devRef .tc main_v4) = W1 m ρ c (Proc.devRef .tc main_v4) :=
  at3_of1 m ρ c main_v4 (by decide) (by decide)
theorem arg0_at3 : W3 m ρ c (Proc.devRef .tc main_arg0) = m ((c : Thread nD τ).loc main_arg0) :=
  (at3_of1 m ρ c main_arg0 (by decide) (by decide)).trans (arg_at1 m ρ c main_arg0 (by decide))

theorem v9_at4 (n : Fin 50000) (j : Fin 192) :
    W4 m ρ c (Proc.devRef .tc main_v9) (ix2 n j)
      = Cert.Spec.lin (fun (n : Fin 50000) (k : Fin 16) => V3 m ρ c main_arg0 (ix2 n k)) (fun (k : Fin 16) (j : Fin 192) => V3 m ρ c main_v4 (ix2 k j)) (fun (j : Fin 192) => V3 m ρ c main_v8 (ix2 0 j)) n j := by
  have e1 : W4 m ρ c (Proc.devRef .tc main_v9) = (dat1 (F := Ideal) (V3 m ρ) c).arrAt 3 cfg1.N := W4_arr m ρ c 3
  rw [e1, final1]

theorem v9_q_at4 (n : Fin 50000) (j : Fin 64) : W4 m ρ c (Proc.devRef .tc main_v9) (ix2 n (qcol j)) = sQ m c n j :=
  (v9_at4 m ρ c n (qcol j)).trans (lin_third qcol
    (fun n k => congrFun (arg0_at3 m ρ c) (ix2 n k))
    (fun k j => (congrFun (v4_at3 m ρ c) (ix2 k (qcol j))).trans (v4_q_at1 m ρ c k j))
    (fun j => (v8_at3 m ρ c (qcol j)).trans (v5_q_at1 m ρ c j)) n j)
theorem v9_k_at4 (n : Fin 50000) (j : Fin 64) : W4 m ρ c (Proc.devRef .tc main_v9) (ix2 n (kcol j)) = sK m c n j :=
  (v9_at4 m ρ c n (kcol j)).trans (lin_third kcol
    (fun n k => congrFun (arg0_at3 m ρ c) (ix2 n k))
    (fun k j => (congrFun (v4_at3 m ρ c) (ix2 k (kcol j))).trans (v4_k_at1 m ρ c k j))
    (fun j => (v8_at3 m ρ c (kcol j)).trans (v5_k_at1 m ρ c j)) n j)
theorem v9_v_at4 (n : Fin 50000) (j : Fin 64) : W4 m ρ c (Proc.devRef .tc main_v9) (ix2 n (vcol j)) = sV m c n j :=
  (v9_at4 m ρ c n (vcol j)).trans (lin_third vcol
    (fun n k => congrFun (arg0_at3 m ρ c) (ix2 n k))
    (fun k j => (congrFun (v4_at3 m ρ c) (ix2 k (vcol j))).trans (v4_v_at1 m ρ c k j))
    (fun j => (v8_at3 m ρ c (vcol j)).trans (v5_v_at1 m ρ c j)) n j)

theorem v10_at5 (n : Fin 50000) (j : Fin 64) : W5 m ρ c (Proc.devRef .tc main_v10) (ix2 n j) = sQ m c n j :=
  (q2 (W4 m ρ c) n j).trans (v9_q_at4 m ρ c n j)
theorem v11_at5 (n : Fin 50000) (j : Fin 64) : W5 m ρ c (Proc.devRef .tc main_v11) (ix2 n j) = sK m c n j :=
  (k2 (W4 m ρ c) n j).trans (v9_k_at4 m ρ c n j)
theorem v12_at5 (n : Fin 50000) (j : Fin 64) : W5 m ρ c (Proc.devRef .tc main_v12) (ix2 n j) = sV m c n j :=
  (v2 (W4 m ρ c) n j).trans (v9_v_at4 m ρ c n j)

theorem at5_of1 (r : Ref sig .tc) (h2 : ∀ w, Pipeline.arrRef spec0 w ≠ r) (h3 : r ∉ hostOps1_W)
    (h4 : ∀ w, Pipeline.arrRef spec1 w ≠ r) (h5 : r ∉ hostOps2_W) :
    W5 m ρ c (Proc.devRef .tc r) = W1 m ρ c (Proc.devRef .tc r) :=
  (W5_of m ρ c r h5).trans ((W4_of_ne m ρ c r h4).trans (at3_of1 m ρ c r h2 h3))

theorem v1_at5 (e : Fin 800000) : W5 m ρ c (Proc.devRef .tc main_v1) (ix1 e) = sEi m c (ix2 0 e) :=
  (congrFun (at5_of1 m ρ c main_v1 (by decide) (by decide) (by decide) (by decide)) (ix1 e)).trans (v1_at1 m ρ c e)
theorem v3_at5 (e : Fin 800000) : W5 m ρ c (Proc.devRef .tc main_v3) (ix1 e) = sEi m c (ix2 1 e) :=
  (congrFun (at5_of1 m ρ c main_v3 (by decide) (by decide) (by decide) (by decide)) (ix1 e)).trans (v3_at1 m ρ c e)
theorem v3_at6 (e : Fin 800000) : W6 m ρ c (Proc.devRef .tc main_v3) (ix1 e) = sEi m c (ix2 1 e) :=
  (congrFun (W6_of m ρ c main_v3 (by decide)) (ix1 e)).trans (v3_at5 m ρ c e)
theorem v1_at7 (e : Fin 800000) : W7 m ρ c (Proc.devRef .tc main_v1) (ix1 e) = sEi m c (ix2 0 e) :=
  (congrFun ((W7_of m ρ c main_v1 (by decide)).trans (W6_of m ρ c main_v1 (by decide))) (ix1 e)).trans (v1_at5 m ρ c e)

omit m ρ c in
theorem take_node {T : FVec Ideal S50000x64 .f32} {I : IVec S800000 32} {ei : Cert.Spec.EdgeList} (r : Fin 2)
    (hr : Cert.Spec.InRange ei) (hI : ∀ e, I (ix1 e) = ei (ix2 r e)) (e : Fin 800000) (j : Fin 64) :
    takeVal T I (ix2 e j) = T (ix2 (Cert.Spec.node ei r e) j) := by
  have h : ∀ e : Fin 800000, 0 ≤ (I (ix1 e)).toInt ∧ (I (ix1 e)).toInt < 50000 := fun e => by rw [hI]; exact hr r e
  refine (takeVal_apply I h T e j).trans (congrArg (fun n => T (ix2 n j)) (Fin.ext ?_))
  show min _ 49999 = min _ 49999
  rw [hI]

variable (hr : Cert.Spec.InRange (m ((c : Thread nD τ).loc main_arg2)))
include hr

theorem v13_at6 (e : Fin 800000) (j : Fin 64) :
    W6 m ρ c (Proc.devRef .tc main_v13) (ix2 e j) = sK m c (Cert.Spec.node (sEi m c) 0 e) j :=
  (congrFun (run_2_1 (W5 m ρ c)) _).trans ((take_node 0 hr (v1_at5 m ρ c) e j).trans (v11_at5 m ρ c _ j))

theorem v14_at7 (e : Fin 800000) (j : Fin 64) :
    W7 m ρ c (Proc.devRef .tc main_v14) (ix2 e j) = sQ m c (Cert.Spec.node (sEi m c) 1 e) j :=
  (congrFun (run_2_2 (W6 m ρ c)) _).trans ((take_node 1 hr (v3_at6 m ρ c) e j).trans
    ((congrFun (W6_of m ρ c main_v10 (by decide)) _).trans (v10_at5 m ρ c _ j)))

theorem v15_at8 (e : Fin 800000) (j : Fin 64) :
    W8 m ρ c (Proc.devRef .tc main_v15) (ix2 e j) = sV m c (Cert.Spec.node (sEi m c) 0 e) j :=
  (congrFun (run_2_3 (W7 m ρ c)) _).trans ((take_node 0 hr (v1_at7 m ρ c) e j).trans
    ((congrFun ((W7_of m ρ c main_v12 (by decide)).trans (W6_of m ρ c main_v12 (by decide))) _).trans (v12_at5 m ρ c _ j)))

theorem v13_at8 (e : Fin 800000) (j : Fin 64) :
    W8 m ρ c (Proc.devRef .tc main_v13) (ix2 e j) = sK m c (Cert.Spec.node (sEi m c) 0 e) j :=
  (congrFun ((W8_of m ρ c main_v13 (by decide)).trans (W7_of m ρ c main_v13 (by decide))) (ix2 e j)).trans (v13_at6 m ρ c hr e j)
theorem v14_at8 (e : Fin 800000) (j : Fin 64) :
    W8 m ρ c (Proc.devRef .tc main_v14) (ix2 e j) = sQ m c (Cert.Spec.node (sEi m c) 1 e) j :=
  (congrFun (W8_of m ρ c main_v14 (by decide)) (ix2 e j)).trans (v14_at7 m ρ c hr e j)

omit hr

theorem at8_of3 (r : Ref sig .tc) (h4 : W4 m ρ c (Proc.devRef .tc r) = W3 m ρ c (Proc.devRef .tc r)) (h5 : r ∉ hostOps2_W)
    (h6 : r ∉ hostOps2_1_W) (h7 : r ∉ hostOps2_2_W) (h8 : r ∉ hostOps2_3_W) :
    W8 m ρ c (Proc.devRef .tc r) = W3 m ρ c (Proc.devRef .tc r) :=
  (W8_of m ρ c r h8).trans ((W7_of m ρ c r h7).trans ((W6_of m ρ c r h6).trans ((W5_of m ρ c r h5).trans h4)))

theorem v7_at8 (e : Fin 800000) (j : Fin 64) : W8 m ρ c (Proc.devRef .tc main_v7) (ix2 e j) = sE m c e j :=
  (congrFun ((at8_of3 m ρ c main_v7 (W4_of_ne m ρ c _ (by decide)) (by decide) (by decide) (by decide) (by decide)).trans (W3_of m ρ c main_v7 (by decide))) (ix2 e j)).trans
    (v7_at2 m ρ c e j)
theorem cst_at8 (j : Fin 64) (h : Fin 8) : W8 m ρ c (Proc.devRef .tc main_cst) (ix2 j h) = Cert.Spec.grp j h :=
  (congrFun ((at8_of3 m ρ c main_cst (W4_of_ne m ρ c _ (by decide)) (by decide) (by decide) (by decide) (by decide)).trans (at3_of1 m ρ c main_cst (by decide) (by decide))) (ix2 j h)).trans
    (cst_at1 m ρ c j h)
theorem cst0_at8 (h : Fin 8) (j : Fin 64) : W8 m ρ c (Proc.devRef .tc main_cst_0) (ix2 h j) = Cert.Spec.grp j h :=
  (congrFun ((at8_of3 m ρ c main_cst_0 (W4_of_ne m ρ c _ (by decide)) (by decide) (by decide) (by decide) (by decide)).trans (at3_of1 m ρ c main_cst_0 (by decide) (by decide))) (ix2 h j)).trans
    (cst0_at1 m ρ c h j)
theorem v3_at8 (e : Fin 800000) : W8 m ρ c (Proc.devRef .tc main_v3) (ix1 e) = sEi m c (ix2 1 e) :=
  (congrFun ((W8_of m ρ c main_v3 (by decide)).trans (W7_of m ρ c main_v3 (by decide))) (ix1 e)).trans (v3_at6 m ρ c e)

include hr

theorem v16_0_at9 (e : Fin 800000) (h : Fin 8) :
    W9 m ρ c (Proc.devRef .tc main_v16_0) (ix2 e h) = Cert.Spec.weight (sQ m c) (sK m c) (sE m c) (sEi m c) e h := by
  have e1 : W9 m ρ c (Proc.devRef .tc main_v16_0) = (dat2 (F := Ideal) (V8 m ρ) c).arrAt 6 cfg2.N := W9_arr m ρ c 6
  rw [e1, final2_w (V8 m ρ) c (cst_at8 m ρ c) e h, Cert.Spec.weight_eq]
  exact edgeW_congr (fun e j => v13_at8 m ρ c hr e j) (fun e j => v14_at8 m ρ c hr e j) (fun e j => v7_at8 m ρ c e j) e h

theorem v16_1_at9 (e : Fin 800000) (j : Fin 64) :
    W9 m ρ c (Proc.devRef .tc main_v16_1) (ix2 e j)
      = Cert.Spec.weight (sQ m c) (sK m c) (sE m c) (sEi m c) e (Cert.Spec.head j) * sV m c (Cert.Spec.node (sEi m c) 0 e) j := by
  have e1 : W9 m ρ c (Proc.devRef .tc main_v16_1) = (dat2 (F := Ideal) (V8 m ρ) c).arrAt 7 cfg2.N := W9_arr m ρ c 7
  rw [e1, final2_c (V8 m ρ) c (cst_at8 m ρ c) (cst0_at8 m ρ c) e j, Cert.Spec.weight_eq]
  exact congrArg₂ (· * ·)
    (edgeW_congr (fun e j => v13_at8 m ρ c hr e j) (fun e j => v14_at8 m ρ c hr e j) (fun e j => v7_at8 m ρ c e j) e (Cert.Spec.head j))
    (v15_at8 m ρ c hr e j)

omit hr

theorem v3_at9 (e : Fin 800000) : W9 m ρ c (Proc.devRef .tc main_v3) (ix1 e) = sEi m c (ix2 1 e) :=
  (congrFun (W9_of_ne m ρ c main_v3 (by decide)) (ix1 e)).trans (v3_at8 m ρ c e)
theorem cst0_at9 (h : Fin 8) (j : Fin 64) : W9 m ρ c (Proc.devRef .tc main_cst_0) (ix2 h j) = Cert.Spec.grp j h :=
  (congrFun (W9_in m ρ c 5 rfl) (ix2 h j)).trans (cst0_at8 m ρ c h j)

theorem attn_pos (m : (ℓ : Loc nD τ sig) → Buf (Elt Ideal) ℓ) (ρ : Dev nD → PrngReg) (c : Dev nD)
    (hr : Cert.Spec.InRange (m ((c : Thread nD τ).loc main_arg2))) (n : Fin 50000) (j : Fin 64) :
    W10 m ρ c (Proc.devRef .tc main_v26) (ix2 n j)
      = Cert.Spec.attnA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) n j :=
  (collect3 (W9 m ρ c) n j).trans
    (quot_phi (v3_at9 m ρ c) (v16_1_at9 m ρ c hr) (v16_0_at9 m ρ c hr) (cst0_at9 m ρ c) n j)

theorem at10_of8 (r : Ref sig .tc) (h9 : ∀ w, Pipeline.arrRef spec2 w ≠ r) (h10 : r ∉ hostOps3_W) :
    W10 m ρ c (Proc.devRef .tc r) = W8 m ρ c (Proc.devRef .tc r) :=
  (W10_of m ρ c r h10).trans (W9_of_ne m ρ c r h9)

theorem v27_at10 (n : Fin 50000) (k : Fin 16) :
    W10 m ρ c (Proc.devRef .tc main_v27) (ix2 n k) = - m2 (m ((c : Thread nD τ).loc main_arg0)) n k := by
  refine (neg3 (W9 m ρ c) (ix2 n k)).trans (congrArg (Neg.neg (α := EReal)) ?_)
  exact congrFun ((W9_of_ne m ρ c main_arg0 (by decide)).trans
    ((at8_of3 m ρ c main_arg0 (W4_in m ρ c 0 rfl) (by decide) (by decide) (by decide) (by decide)).trans (arg0_at3 m ρ c))) (ix2 n k)

theorem v28_at10 (j : Fin 192) :
    W10 m ρ c (Proc.devRef .tc main_v28) (ix2 0 j) = W1 m ρ c (Proc.devRef .tc main_v5) (ix1 j) :=
  (bias3 (W9 m ρ c) j).trans (congrFun ((W9_of_ne m ρ c main_v5 (by decide)).trans
    ((at8_of3 m ρ c main_v5 (W4_of_ne m ρ c _ (by decide)) (by decide) (by decide) (by decide) (by decide)).trans (at3_of1 m ρ c main_v5 (by decide) (by decide)))) (ix1 j))

theorem v1_at10 (e : Fin 800000) :
    W10 m ρ c (Proc.devRef .tc main_v1) (ix1 e) = m ((c : Thread nD τ).loc main_arg2) (ix2 0 e) :=
  (congrFun ((at10_of8 m ρ c main_v1 (by decide) (by decide)).trans (W8_of m ρ c main_v1 (by decide))) (ix1 e)).trans (v1_at7 m ρ c e)
theorem v3_at10 (e : Fin 800000) :
    W10 m ρ c (Proc.devRef .tc main_v3) (ix1 e) = m ((c : Thread nD τ).loc main_arg2) (ix2 1 e) :=
  (congrFun (at10_of8 m ρ c main_v3 (by decide) (by decide)) (ix1 e)).trans (v3_at8 m ρ c e)
theorem v4_at10 : W10 m ρ c (Proc.devRef .tc main_v4) = W1 m ρ c (Proc.devRef .tc main_v4) :=
  (at10_of8 m ρ c main_v4 (by decide) (by decide)).trans
    ((W8_of m ρ c main_v4 (by decide)).trans ((W7_of m ρ c main_v4 (by decide)).trans ((W6_of m ρ c main_v4 (by decide)).trans
      ((W5_of m ρ c main_v4 (by decide)).trans ((W4_in m ρ c 1 rfl).trans (v4_at3 m ρ c))))))
theorem v7_at10 (e : Fin 800000) (j : Fin 64) : W10 m ρ c (Proc.devRef .tc main_v7) (ix2 e j) = sE m c e j :=
  (congrFun ((W10_of m ρ c main_v7 (by decide)).trans (W9_in m ρ c 3 rfl)) (ix2 e j)).trans (v7_at8 m ρ c e j)
theorem cst_at10 (j : Fin 64) (h : Fin 8) : W10 m ρ c (Proc.devRef .tc main_cst) (ix2 j h) = Cert.Spec.grp j h :=
  (congrFun ((W10_of m ρ c main_cst (by decide)).trans (W9_in m ρ c 4 rfl)) (ix2 j h)).trans (cst_at8 m ρ c j h)
theorem cst0_at10 (h : Fin 8) (j : Fin 64) : W10 m ρ c (Proc.devRef .tc main_cst_0) (ix2 h j) = Cert.Spec.grp j h :=
  (congrFun (W10_of m ρ c main_cst_0 (by decide)) (ix2 h j)).trans (cst0_at9 m ρ c h j)

end Cert.KernelIdeal.Val

end
-- ==== Proof.KI.Val3.lean ====
import proofs.«412297_j88252987998303_2_alg».proof.Proof.KI.R3
import proofs.«412297_j88252987998303_2_alg».proof.Proof.KI.Val1

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

-- Region 3 runs region 1's body up to an identity reshape of the first operand.
theorem k3_pay1_eq (x0 : Vec Ideal S10000x16 .f32) (x1 : Vec Ideal S16x192 .f32) (x2 : Vec Ideal S1x192 .f32) :
    k3_pay1 (F := Ideal) x0 x1 x2 = k1_pay1 x0 x1 x2 := by
  unfold k3_pay1 k1_pay1
  simp only [shapeCast_self]

theorem idxfacts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section Region
variable (V : (c : Dev nD) → (b : Ref sig .tc) → Buf (Elt Ideal) ((c : Thread nD τ).loc b))

-- Each loaded block sits in its array at the place the output block's entry names, so the body's entry is G1's.
theorem blockread3 (c : Dev nD) (t : Fin cfg3.N) (y : S10000x192.Idx) :
    k3_pay1 (F := Ideal) (iblk3 V c 0 t) (iblk3 V c 1 t) (iblk3 V c 2 t) y
      = G1 (V c (Pipeline.arrRef spec3 0)) (V c (Pipeline.arrRef spec3 1)) (V c (Pipeline.arrRef spec3 2)) (((cfg3.win 3).blk t).view.emb y) := by
  obtain ⟨p, q, rfl⟩ : ∃ (p : Fin 10000) (q : Fin 192), y = ix2 p q := ⟨y 0, y 1, eq_ix2 y⟩
  obtain ⟨e0, e1, e2, e3, e4, e5, e6, e7⟩ := idxfacts3 t
  rw [k3_pay1_eq, pay1_apply]
  unfold G1 Cert.Spec.lin
  refine congrArg₂ (· + ·) (Finset.sum_congr rfl fun k _ => congrArg₂ (· * ·) ?_ ?_) ?_
  · show V c (Pipeline.arrRef spec3 0) (((cfg3.win 0).blk t).view.emb (ix2 p k)) = _
    refine congrArg (V c (Pipeline.arrRef spec3 0)) (funext fun a => Fin.ext ?_)
    match a with
    | ⟨0, _⟩ => show win3_0.index t (0 : Fin 2) * 10000 + 1 * p.val = win3_3.index t (0 : Fin 2) * 10000 + 1 * p.val; omega
    | ⟨1, _⟩ => show win3_0.index t (1 : Fin 2) * 16 + 1 * k.val = k.val; omega
  · show V c (Pipeline.arrRef spec3 1) (((cfg3.win 1).blk t).view.emb (ix2 k q)) = _
    refine congrArg (V c (Pipeline.arrRef spec3 1)) (funext fun a => Fin.ext ?_)
    match a with
    | ⟨0, _⟩ => show win3_1.index t (0 : Fin 2) * 16 + 1 * k.val = k.val; omega
    | ⟨1, _⟩ => show win3_1.index t (1 : Fin 2) * 192 + 1 * q.val = win3_3.index t (1 : Fin 2) * 192 + 1 * q.val; omega
  · show V c (Pipeline.arrRef spec3 2) (((cfg3.win 2).blk t).view.emb (ix2 (0 : Fin 1) q)) = _
    refine congrArg (V c (Pipeline.arrRef spec3 2)) (funext fun a => Fin.ext ?_)
    match a with
    | ⟨0, _⟩ => show win3_2.index t (0 : Fin 2) * 1 + 1 * 0 = 0; omega
    | ⟨1, _⟩ => show win3_2.index t (1 : Fin 2) * 192 + 1 * q.val = win3_3.index t (1 : Fin 2) * 192 + 1 * q.val; omega

theorem flushed3_eq (c : Dev nD) (t : Fin cfg3.N) :
    (dat3 (F := Ideal) V c).flushed 3 t
      = ((cfg3.win 3).blk t).view.read (Elt Ideal) (G1 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz1]
  simp only [View.ld_unit_zero (S := S10000x16) hz1, View.ld_unit_zero (S := S16x192) hz1, View.ld_unit_zero (S := S1x192) hz1]
  funext y
  exact blockread3 V c t y

-- Row r of the output lies in the block of point r / 10000.
theorem covered3 (i : S50000x192.Idx) : ∃ t : Fin cfg3.N, (cfg3.win 3).flush t = true ∧ i ∈ ((cfg3.win 3).blk t).view.set := by
  have hN : cfg3.N = 5 := N_3
  have hi0 : (i 0).val < 50000 := (i 0).isLt
  have hi1 : (i 1).val < 192 := (i 1).isLt
  obtain ⟨t, ht⟩ : ∃ t : Fin cfg3.N, t.val = (i 0).val / 10000 := ⟨⟨(i 0).val / 10000, by omega⟩, rfl⟩
  obtain ⟨-, -, -, -, -, -, e6, e7⟩ := idxfacts3 t
  refine ⟨t, flush3_3 t, ?_⟩
  show i ∈ ((View.whole (Pipeline.arrRef spec3 3)).slice (win3_3.rect t)).set
  rw [View.set_slice_whole, Rect.mem_set_unit]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 192 ≤ (i 1).val ∧ (i 1).val < win3_3.index t (1 : Fin 2) * 192 + 192; omega

theorem final3 (c : Dev nD) (n : Fin 50000) (j : Fin 192) :
    (dat3 (F := Ideal) V c).arrAt 3 cfg3.N (ix2 n j)
      = Cert.Spec.lin (fun (n : Fin 50000) (k : Fin 16) => V c (Pipeline.arrRef spec3 0) (ix2 n k)) (fun (k : Fin 16) (j : Fin 192) => V c (Pipeline.arrRef spec3 1) (ix2 k j)) (fun (j : Fin 192) => V c (Pipeline.arrRef spec3 2) (ix2 0 j)) n j :=
  congrFun ((dat3 (F := Ideal) V c).arrAt_eq_of_cover 3 (G1 (V c (Pipeline.arrRef spec3 0)) (V c (Pipeline.arrRef spec3 1)) (V c (Pipeline.arrRef spec3 2))) (fun t _ => flushed3_eq V c t) covered3) (ix2 n j)

end Region

end Cert.KernelIdeal.Val

end
-- ==== Proof.KI.Val4.lean ====
import proofs.«412297_j88252987998303_2_alg».proof.Proof.KI.R4
import proofs.«412297_j88252987998303_2_alg».proof.Proof.KI.Val2

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

-- Region 4 runs region 2's body on its own arrays: only the window facts are its own, the entry lemmas are region 2's.
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = t.val
    ∧ win4_3.index t (1 : Fin 2) = 0
    ∧ win4_6.index t (0 : Fin 2) = t.val
    ∧ win4_6.index t (1 : Fin 2) = 0
    ∧ win4_7.index t (0 : Fin 2) = t.val
    ∧ win4_7.index t (1 : Fin 2) = 0
    ∧ win4_4.index t (0 : Fin 2) = 0
    ∧ win4_4.index t (1 : Fin 2) = 0
    ∧ win4_5.index t (0 : Fin 2) = 0
    ∧ win4_5.index t (1 : Fin 2) = 0 :=
  (by decide +kernel : ∀ t : Fin grid4.N, _)

theorem row_lt4 (t : Fin cfg4.N) (p : Fin 5000) : t.val * 5000 + p.val < 800000 := by
  have ht : t.val < 160 := t.isLt.trans_eq N_4
  have hp := p.isLt
  omega

section Region
variable (V : (c : Dev nD) → (b : Ref sig .tc) → Buf (Elt Ideal) ((c : Thread nD τ).loc b))

theorem iblk4_0_apply (c : Dev nD) (t : Fin cfg4.N) (p : Fin 5000) (j : Fin 64) :
    (iblk4 V c 0 t : Vec Ideal S5000x64 .f32) (ix2 p j) = (V c (Pipeline.arrRef spec4 0) : S800000x64.Idx → EReal) (ix2 ⟨t.val * 5000 + p.val, row_lt4 t p⟩ j) := by
  obtain ⟨e0r, e0c, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * p.val = t.val * 5000 + p.val; rw [e0r]; omega
  | ⟨1, _⟩ => show win4_0.index t (1 : Fin 2) * 64 + 1 * j.val = j.val; rw [e0c]; omega

theorem iblk4_1_apply (c : Dev nD) (t : Fin cfg4.N) (p : Fin 5000) (j : Fin 64) :
    (iblk4 V c 1 t : Vec Ideal S5000x64 .f32) (ix2 p j) = (V c (Pipeline.arrRef spec4 1) : S800000x64.Idx → EReal) (ix2 ⟨t.val * 5000 + p.val, row_lt4 t p⟩ j) := by
  obtain ⟨-, -, e1r, e1c, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 5000 + 1 * p.val = t.val * 5000 + p.val; rw [e1r]; omega
  | ⟨1, _⟩ => show win4_1.index t (1 : Fin 2) * 64 + 1 * j.val = j.val; rw [e1c]; omega

theorem iblk4_2_apply (c : Dev nD) (t : Fin cfg4.N) (p : Fin 5000) (j : Fin 64) :
    (iblk4 V c 2 t : Vec Ideal S5000x64 .f32) (ix2 p j) = (V c (Pipeline.arrRef spec4 2) : S800000x64.Idx → EReal) (ix2 ⟨t.val * 5000 + p.val, row_lt4 t p⟩ j) := by
  obtain ⟨-, -, -, -, e2r, e2c, -⟩ := idx_facts4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 5000 + 1 * p.val = t.val * 5000 + p.val; rw [e2r]; omega
  | ⟨1, _⟩ => show win4_2.index t (1 : Fin 2) * 64 + 1 * j.val = j.val; rw [e2c]; omega

theorem iblk4_3_apply (c : Dev nD) (t : Fin cfg4.N) (p : Fin 5000) (j : Fin 64) :
    (iblk4 V c 3 t : Vec Ideal S5000x64 .f32) (ix2 p j) = (V c (Pipeline.arrRef spec4 3) : S800000x64.Idx → EReal) (ix2 ⟨t.val * 5000 + p.val, row_lt4 t p⟩ j) := by
  obtain ⟨-, -, -, -, -, -, e3r, e3c, -⟩ := idx_facts4 t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 5000 + 1 * p.val = t.val * 5000 + p.val; rw [e3r]; omega
  | ⟨1, _⟩ => show win4_3.index t (1 : Fin 2) * 64 + 1 * j.val = j.val; rw [e3c]; omega

theorem iblk4_4_apply (c : Dev nD) (t : Fin cfg4.N) (a : Fin 64) (b : Fin 8) :
    (iblk4 V c 4 t : Vec Ideal S64x8 .f32) (ix2 a b) = (V c main_cst : S64x8.Idx → EReal) (ix2 a b) := by
  obtain ⟨-, -, -, -, -, -, -, -, -, -, -, -, e4r, e4c, -⟩ := idx_facts4 t
  unfold iblk4
  rw [View.read_apply]
  show V c main_cst _ = V c main_cst _
  congr 1
  funext x
  apply Fin.ext
  match x with
  | ⟨0, _⟩ => show win4_4.index t (0 : Fin 2) * 64 + 1 * a.val = a.val; rw [e4r]; omega
  | ⟨1, _⟩ => show win4_4.index t (1 : Fin 2) * 8 + 1 * b.val = b.val; rw [e4c]; omega

theorem iblk4_5_apply (c : Dev nD) (t : Fin cfg4.N) (a : Fin 8) (b : Fin 64) :
    (iblk4 V c 5 t : Vec Ideal S8x64 .f32) (ix2 a b) = (V c main_cst_0 : S8x64.Idx → EReal) (ix2 a b) := by
  obtain ⟨-, -, -, -, -, -, -, -, -, -, -, -, -, -, e5r, e5c⟩ := idx_facts4 t
  unfold iblk4
  rw [View.read_apply]
  show V c main_cst_0 _ = V c main_cst_0 _
  congr 1
  funext x
  apply Fin.ext
  match x with
  | ⟨0, _⟩ => show win4_5.index t (0 : Fin 2) * 8 + 1 * a.val = a.val; rw [e5r]; omega
  | ⟨1, _⟩ => show win4_5.index t (1 : Fin 2) * 64 + 1 * b.val = b.val; rw [e5c]; omega

theorem emb4_6 (t : Fin cfg4.N) (p : Fin 5000) (q : Fin 8) :
    ((cfg4.win 6).blk t).view.emb (ix2 p q) = (ix2 ⟨t.val * 5000 + p.val, row_lt4 t p⟩ q : S800000x8.Idx) := by
  obtain ⟨-, -, -, -, -, -, -, -, e6r, e6c, -⟩ := idx_facts4 t
  funext a
  apply Fin.ext
  match a with
  | ⟨0, _⟩ => show win4_6.index t (0 : Fin 2) * 5000 + 1 * p.val = t.val * 5000 + p.val; rw [e6r]; omega
  | ⟨1, _⟩ => show win4_6.index t (1 : Fin 2) * 8 + 1 * q.val = q.val; rw [e6c]; omega

theorem emb4_7 (t : Fin cfg4.N) (p : Fin 5000) (q : Fin 64) :
    ((cfg4.win 7).blk t).view.emb (ix2 p q) = (ix2 ⟨t.val * 5000 + p.val, row_lt4 t p⟩ q : S800000x64.Idx) := by
  obtain ⟨-, -, -, -, -, -, -, -, -, -, e7r, e7c, -⟩ := idx_facts4 t
  funext a
  apply Fin.ext
  match a with
  | ⟨0, _⟩ => show win4_7.index t (0 : Fin 2) * 5000 + 1 * p.val = t.val * 5000 + p.val; rw [e7r]; omega
  | ⟨1, _⟩ => show win4_7.index t (1 : Fin 2) * 64 + 1 * q.val = q.val; rw [e7c]; omega

set_option maxHeartbeats 400000 in
theorem flushed4_6_eq (c : Dev nD) (hG : ∀ (j : Fin 64) (h : Fin 8), V c main_cst (ix2 j h) = Cert.Spec.grp j h) (t : Fin cfg4.N) :
    (dat4 (F := Ideal) V c).flushed 6 t = ((cfg4.win 6).blk t).view.read (Elt Ideal) (G2_6 (V c (Pipeline.arrRef spec4 0)) (V c (Pipeline.arrRef spec4 1)) (V c (Pipeline.arrRef spec4 3))) := by
  show (cfg4.win 6).cut (grid4.coords t) ((dat4 V c).after 6 t) = _
  rw [after4_6]
  funext y
  obtain ⟨p, h, rfl⟩ : ∃ (p : Fin 5000) (h : Fin 8), y = ix2 p h := ⟨y 0, y 1, eq_ix2 y⟩
  rw [View.read_apply]
  show out4_6 (iblk4 V c 0 t) (iblk4 V c 1 t) (iblk4 V c 2 t) (iblk4 V c 3 t) (iblk4 V c 4 t) (iblk4 V c 5 t) (ix2 p h)
    = G2_6 (V c (Pipeline.arrRef spec4 0)) (V c (Pipeline.arrRef spec4 1)) (V c (Pipeline.arrRef spec4 3)) (((cfg4.win 6).blk t).view.emb (ix2 p h))
  rw [emb4_6 t p h]
  exact out2_6_entry (iblk4 V c 0 t) (iblk4 V c 1 t) (iblk4 V c 2 t) (iblk4 V c 3 t) (iblk4 V c 4 t) (iblk4 V c 5 t) _ _ _ p _ h
    (iblk4_0_apply V c t p) (iblk4_1_apply V c t p) (iblk4_3_apply V c t p)
    (fun j h => (iblk4_4_apply V c t j h).trans (hG j h))

set_option maxHeartbeats 400000 in
theorem flushed4_7_eq (c : Dev nD) (hG : ∀ (j : Fin 64) (h : Fin 8), V c main_cst (ix2 j h) = Cert.Spec.grp j h) (hGT : ∀ (h : Fin 8) (j : Fin 64), V c main_cst_0 (ix2 h j) = Cert.Spec.grp j h) (t : Fin cfg4.N) :
    (dat4 (F := Ideal) V c).flushed 7 t = ((cfg4.win 7).blk t).view.read (Elt Ideal) (G2_7 (V c (Pipeline.arrRef spec4 0)) (V c (Pipeline.arrRef spec4 1)) (V c (Pipeline.arrRef spec4 2)) (V c (Pipeline.arrRef spec4 3))) := by
  show (cfg4.win 7).cut (grid4.coords t) ((dat4 V c).after 7 t) = _
  rw [after4_7]
  funext y
  obtain ⟨p, j, rfl⟩ : ∃ (p : Fin 5000) (j : Fin 64), y = ix2 p j := ⟨y 0, y 1, eq_ix2 y⟩
  rw [View.read_apply]
  show out4_7 (iblk4 V c 0 t) (iblk4 V c 1 t) (iblk4 V c 2 t) (iblk4 V c 3 t) (iblk4 V c 4 t) (iblk4 V c 5 t) (ix2 p j)
    = G2_7 (V c (Pipeline.arrRef spec4 0)) (V c (Pipeline.arrRef spec4 1)) (V c (Pipeline.arrRef spec4 2)) (V c (Pipeline.arrRef spec4 3)) (((cfg4.win 7).blk t).view.emb (ix2 p j))
  rw [emb4_7 t p j]
  exact out2_7_entry (iblk4 V c 0 t) (iblk4 V c 1 t) (iblk4 V c 2 t) (iblk4 V c 3 t) (iblk4 V c 4 t) (iblk4 V c 5 t) _ _ _ _ p _ j
    (iblk4_0_apply V c t p) (iblk4_1_apply V c t p) (iblk4_3_apply V c t p) (iblk4_2_apply V c t p j)
    (fun j h => (iblk4_4_apply V c t j h).trans (hG j h)) (fun h j => (iblk4_5_apply V c t h j).trans (hGT h j))

theorem covered4_6 (i : S800000x8.Idx) : ∃ t : Fin cfg4.N, (cfg4.win 6).flush t = true ∧ i ∈ ((cfg4.win 6).blk t).view.set := by
  have hi0 : (i 0).val < 800000 := (i 0).isLt
  have hi1 : (i 1).val < 8 := (i 1).isLt
  obtain ⟨t, ht⟩ : ∃ t : Fin cfg4.N, t.val = (i 0).val / 5000 :=
    ⟨⟨(i 0).val / 5000, (by omega : (i 0).val / 5000 < 160).trans_eq N_4.symm⟩, rfl⟩
  obtain ⟨-, -, -, -, -, -, -, -, e6r, e6c, -⟩ := idx_facts4 t
  refine ⟨t, flush4_6 t, ?_⟩
  show i ∈ ((View.whole (Pipeline.arrRef spec4 6)).slice (win4_6.rect t)).set
  rw [View.set_slice_whole, Rect.mem_set_unit]
  intro a
  match a with
  | ⟨0, _⟩ => show win4_6.index t (0 : Fin 2) * 5000 ≤ (i 0).val ∧ (i 0).val < win4_6.index t (0 : Fin 2) * 5000 + 5000; rw [e6r]; omega
  | ⟨1, _⟩ => show win4_6.index t (1 : Fin 2) * 8 ≤ (i 1).val ∧ (i 1).val < win4_6.index t (1 : Fin 2) * 8 + 8; rw [e6c]; omega

theorem covered4_7 (i : S800000x64.Idx) : ∃ t : Fin cfg4.N, (cfg4.win 7).flush t = true ∧ i ∈ ((cfg4.win 7).blk t).view.set := by
  have hi0 : (i 0).val < 800000 := (i 0).isLt
  have hi1 : (i 1).val < 64 := (i 1).isLt
  obtain ⟨t, ht⟩ : ∃ t : Fin cfg4.N, t.val = (i 0).val / 5000 :=
    ⟨⟨(i 0).val / 5000, (by omega : (i 0).val / 5000 < 160).trans_eq N_4.symm⟩, rfl⟩
  obtain ⟨-, -, -, -, -, -, -, -, -, -, e7r, e7c, -⟩ := idx_facts4 t
  refine ⟨t, flush4_7 t, ?_⟩
  show i ∈ ((View.whole (Pipeline.arrRef spec4 7)).slice (win4_7.rect t)).set
  rw [View.set_slice_whole, Rect.mem_set_unit]
  intro a
  match a with
  | ⟨0, _⟩ => show win4_7.index t (0 : Fin 2) * 5000 ≤ (i 0).val ∧ (i 0).val < win4_7.index t (0 : Fin 2) * 5000 + 5000; rw [e7r]; omega
  | ⟨1, _⟩ => show win4_7.index t (1 : Fin 2) * 64 ≤ (i 1).val ∧ (i 1).val < win4_7.index t (1 : Fin 2) * 64 + 64; rw [e7c]; omega

theorem final4_w (c : Dev nD) (hG : ∀ (j : Fin 64) (h : Fin 8), V c main_cst (ix2 j h) = Cert.Spec.grp j h) (e : Fin 800000) (h : Fin 8) :
    (dat4 (F := Ideal) V c).arrAt 6 cfg4.N (ix2 e h)
      = Cert.Spec.edgeW (fun (e : Fin 800000) (j : Fin 64) => V c (Pipeline.arrRef spec4 0) (ix2 e j)) (fun e j => V c (Pipeline.arrRef spec4 1) (ix2 e j)) (fun e j => V c (Pipeline.arrRef spec4 3) (ix2 e j)) e h :=
  congrFun ((dat4 (F := Ideal) V c).arrAt_eq_of_cover 6 (G2_6 (V c (Pipeline.arrRef spec4 0)) (V c (Pipeline.arrRef spec4 1)) (V c (Pipeline.arrRef spec4 3))) (fun t _ => flushed4_6_eq V c hG t) covered4_6) (ix2 e h)

theorem final4_c (c : Dev nD) (hG : ∀ (j : Fin 64) (h : Fin 8), V c main_cst (ix2 j h) = Cert.Spec.grp j h) (hGT : ∀ (h : Fin 8) (j : Fin 64), V c main_cst_0 (ix2 h j) = Cert.Spec.grp j h) (e : Fin 800000) (j : Fin 64) :
    (dat4 (F := Ideal) V c).arrAt 7 cfg4.N (ix2 e j)
      = Cert.Spec.edgeW (fun (e : Fin 800000) (j : Fin 64) => V c (Pipeline.arrRef spec4 0) (ix2 e j)) (fun e j => V c (Pipeline.arrRef spec4 1) (ix2 e j)) (fun e j => V c (Pipeline.arrRef spec4 3) (ix2 e j)) e (Cert.Spec.head j) * V c (Pipeline.arrRef spec4 2) (ix2 e j) :=
  congrFun ((dat4 (F := Ideal) V c).arrAt_eq_of_cover 7 (G2_7 (V c (Pipeline.arrRef spec4 0)) (V c (Pipeline.arrRef spec4 1)) (V c (Pipeline.arrRef spec4 2)) (V c (Pipeline.arrRef spec4 3))) (fun t _ => flushed4_7_eq V c hG hGT t) covered4_7) (ix2 e j)

end Region

end Cert.KernelIdeal.Val

end
-- ==== Proof.KI.Val5.lean ====
import proofs.«412297_j88252987998303_2_alg».proof.Proof.KI.R5
import proofs.«412297_j88252987998303_2_alg».proof.Proof.KI.Dot
import proofs.«412297_j88252987998303_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem pay5_apply (x0 : Vec Ideal S10000x64 .f32) (x1 : Vec Ideal S64x128 .f32) (x2 : Vec Ideal S1x128 .f32)
    (x3 : Vec Ideal S128x64 .f32) (x4 : Vec Ideal S1x64 .f32) (p : Fin 10000) (o : Fin 64) :
    k5_pay1 (F := Ideal) x0 x1 x2 x3 x4 (ix2 p o)
      = (∑ k : Fin 128, max ((∑ j : Fin 64, x0 (ix2 p j) * x1 (ix2 j k)) + x2 (ix2 0 k)) 0 * x3 (ix2 k o)) + x4 (ix2 0 o) := by
  unfold k5_pay1
  simp only [shapeCast_self]
  refine (addf_apply _ _ _).trans ?_
  refine congrArg₂ (· + ·) ?_ ?_
  · refine (matmul_plain_apply (k := 128) _ _ p o).trans ?_
    refine Finset.sum_congr rfl fun k _ => ?_
    refine congrArg₂ (· * ·) ?_ rfl
    refine (truncf_apply (ψ := .bf16) _ bitsLt_bf16_f32 _).trans ?_
    refine (maximumf_apply _ _ _).trans ?_
    refine congrArg₂ max ?_ ?_
    · refine (addf_apply _ _ _).trans ?_
      refine congrArg₂ (· + ·) ?_ ?_
      · exact (matmul_plain_apply (k := 64) _ _ p k).trans rfl
      · exact broadcastTo_apply x2 _ (ix2 p k) (ix2 0 k) (fun a => by match a with | ⟨0, _⟩ => rfl | ⟨1, _⟩ => rfl)
    · exact Ideal.ofBits_zero_f32
  · exact broadcastTo_apply x4 _ (ix2 p o) (ix2 0 o) (fun a => by match a with | ⟨0, _⟩ => rfl | ⟨1, _⟩ => rfl)

section Arrays
variable (V : (c : Dev nD) → (b : Ref sig .tc) → Buf (Elt Ideal) ((c : Thread nD τ).loc b))

theorem hz5 : (![0, 0] : Fin 2 → Nat) = fun _ => 0 := funext fun a => by fin_cases a <;> rfl

def G5 (a47 : Vec Ideal S50000x64 .f32) (a11 : Vec Ideal S64x128 .f32) (a48 : Vec Ideal S1x128 .f32)
    (a13 : Vec Ideal S128x64 .f32) (a49 : Vec Ideal S1x64 .f32) : Vec Ideal S50000x64 .f32 := fun i =>
  Cert.Spec.mlp (fun (j : Fin 64) (k : Fin 128) => a11 (ix2 j k)) (fun (k : Fin 128) => a48 (ix2 0 k))
    (fun (k : Fin 128) (o : Fin 64) => a13 (ix2 k o)) (fun (o : Fin 64) => a49 (ix2 0 o))
    (fun (n : Fin 50000) (j : Fin 64) => a47 (ix2 n j)) (i 0) (i 1)

theorem blk5_eq (a47 : Vec Ideal S50000x64 .f32) (a11 : Vec Ideal S64x128 .f32) (a48 : Vec Ideal S1x128 .f32)
    (a13 : Vec Ideal S128x64 .f32) (a49 : Vec Ideal S1x64 .f32)
    (x0 : Vec Ideal S10000x64 .f32) (x1 : Vec Ideal S64x128 .f32) (x2 : Vec Ideal S1x128 .f32)
    (x3 : Vec Ideal S128x64 .f32) (x4 : Vec Ideal S1x64 .f32) (n : Fin 50000) (p : Fin 10000) (o : Fin 64)
    (h0 : ∀ j : Fin 64, x0 (ix2 p j) = a47 (ix2 n j)) (h1 : ∀ (j : Fin 64) (k : Fin 128), x1 (ix2 j k) = a11 (ix2 j k))
    (h2 : ∀ k : Fin 128, x2 (ix2 0 k) = a48 (ix2 0 k)) (h3 : ∀ (k : Fin 128) (o : Fin 64), x3 (ix2 k o) = a13 (ix2 k o))
    (h4 : ∀ o : Fin 64, x4 (ix2 0 o) = a49 (ix2 0 o)) :
    k5_pay1 (F := Ideal) x0 x1 x2 x3 x4 (ix2 p o) = G5 a47 a11 a48 a13 a49 (ix2 n o) := by
  refine (pay5_apply x0 x1 x2 x3 x4 p o).trans ?_
  simp only [h0, h1, h2, h3, h4]
  rfl

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem flushed5_eq (c : Dev nD) (t : Fin cfg5.N) :
    (dat5 (F := Ideal) V c).flushed 5 t
      = ((cfg5.win 5).blk t).view.read (Elt Ideal) (G5 (V c main_v47) (V c main_arg11) (V c main_v48) (V c main_arg13) (V c main_v49)) := by
  show (cfg5.win 5).cut (grid5.coords t) ((dat5 (F := Ideal) V c).after 5 t) = _
  rw [after5_5]
  unfold out5_5
  rw [View.canon_unit_zero hz5]
  simp only [View.ld_unit_zero (S := S10000x64) hz5, View.ld_unit_zero (S := S64x128) hz5, View.ld_unit_zero (S := S1x128) hz5,
    View.ld_unit_zero (S := S128x64) hz5, View.ld_unit_zero (S := S1x64) hz5]
  obtain ⟨e00, e01, e10, e11, e20, e21, e30, e31, e40, e41, e50, e51⟩ := idx_facts5 t
  have hN : cfg5.N = 5 := N_5
  have ht : t.val < cfg5.N := t.isLt
  funext y
  obtain ⟨p, o, rfl⟩ : ∃ (p : Fin 10000) (o : Fin 64), y = ix2 p o := ⟨y 0, y 1, eq_ix2 y⟩
  have hp : p.val < 10000 := p.isLt
  refine (blk5_eq (V c main_v47) (V c main_arg11) (V c main_v48) (V c main_arg13) (V c main_v49)
    (iblk5 V c 0 t) (iblk5 V c 1 t) (iblk5 V c 2 t) (iblk5 V c 3 t) (iblk5 V c 4 t) ⟨t.val * 10000 + p.val, by omega⟩ p o
    (fun j => congrArg (V c main_v47) (funext fun a => Fin.ext (by
      match a with
      | ⟨0, _⟩ => show win5_0.index t (0 : Fin 2) * 10000 + 1 * p.val = t.val * 10000 + p.val; omega
      | ⟨1, _⟩ => show win5_0.index t (1 : Fin 2) * 64 + 1 * j.val = j.val; omega)))
    (fun j k => congrArg (V c main_arg11) (funext fun a => Fin.ext (by
      match a with
      | ⟨0, _⟩ => show win5_1.index t (0 : Fin 2) * 64 + 1 * j.val = j.val; omega
      | ⟨1, _⟩ => show win5_1.index t (1 : Fin 2) * 128 + 1 * k.val = k.val; omega)))
    (fun k => congrArg (V c main_v48) (funext fun a => Fin.ext (by
      match a with
      | ⟨0, _⟩ => show win5_2.index t (0 : Fin 2) * 1 + 1 * 0 = 0; omega
      | ⟨1, _⟩ => show win5_2.index t (1 : Fin 2) * 128 + 1 * k.val = k.val; omega)))
    (fun k o => congrArg (V c main_arg13) (funext fun a => Fin.ext (by
      match a with
      | ⟨0, _⟩ => show win5_3.index t (0 : Fin 2) * 128 + 1 * k.val = k.val; omega
      | ⟨1, _⟩ => show win5_3.index t (1 : Fin 2) * 64 + 1 * o.val = o.val; omega)))
    (fun o => congrArg (V c main_v49) (funext fun a => Fin.ext (by
      match a with
      | ⟨0, _⟩ => show win5_4.index t (0 : Fin 2) * 1 + 1 * 0 = 0; omega
      | ⟨1, _⟩ => show win5_4.index t (1 : Fin 2) * 64 + 1 * o.val = o.val; omega)))).trans ?_
  refine congrArg (G5 (V c main_v47) (V c main_arg11) (V c main_v48) (V c main_arg13) (V c main_v49)) (funext fun a => Fin.ext (by
    match a with
    | ⟨0, _⟩ => show t.val * 10000 + p.val = win5_5.index t (0 : Fin 2) * 10000 + 1 * p.val; omega
    | ⟨1, _⟩ => show o.val = win5_5.index t (1 : Fin 2) * 64 + 1 * o.val; omega))

theorem mem_blk5 (t : Fin cfg5.N) (i : S50000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v50).slice (win5_5.rect t)).set ↔ _
  rw [View.set_slice_whole, Rect.mem_set_unit]
  exact Iff.rfl

theorem cover5 (i : S50000x64.Idx) : ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 5 := N_5
  let t : Fin cfg5.N := ⟨(i 0).val / 10000, by rw [hN]; omega⟩
  obtain ⟨-, -, -, -, -, -, -, -, -, -, e0, e1⟩ := idx_facts5 t
  have ht : t.val = (i 0).val / 10000 := rfl
  refine ⟨t, flush5_5 t, ?_⟩
  rw [mem_blk5]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 64 ≤ (i 1).val ∧ (i 1).val < win5_5.index t (1 : Fin 2) * 64 + 64; omega

theorem final5_arr (c : Dev nD) :
    (dat5 (F := Ideal) V c).arrAt 5 cfg5.N = G5 (V c main_v47) (V c main_arg11) (V c main_v48) (V c main_arg13) (V c main_v49) :=
  (dat5 (F := Ideal) V c).arrAt_eq_of_cover 5 (G5 (V c main_v47) (V c main_arg11) (V c main_v48) (V c main_arg13) (V c main_v49))
    (fun t _ => flushed5_eq V c t) (cover5 )

theorem final5 (c : Dev nD) (n : Fin 50000) (o : Fin 64) :
    (dat5 (F := Ideal) V c).arrAt 5 cfg5.N (ix2 n o)
      = Cert.Spec.mlp (fun (j : Fin 64) (k : Fin 128) => V c main_arg11 (ix2 j k)) (fun (k : Fin 128) => V c main_v48 (ix2 0 k))
          (fun (k : Fin 128) (o : Fin 64) => V c main_arg13 (ix2 k o)) (fun (o : Fin 64) => V c main_v49 (ix2 0 o))
          (fun (n : Fin 50000) (j : Fin 64) => V c main_v47 (ix2 n j)) n o := by
  rw [final5_arr]; rfl

end Arrays

end Cert.KernelIdeal.Val

end
-- ==== Proof.KI.Glue2.lean ====
import proofs.«412297_j88252987998303_2_alg».proof.Proof.KI.Glue1
import proofs.«412297_j88252987998303_2_alg».proof.Proof.KI.Take
import proofs.«412297_j88252987998303_2_alg».proof.Proof.KI.Val3
import proofs.«412297_j88252987998303_2_alg».proof.Proof.KI.Val4
import proofs.«412297_j88252987998303_2_alg».proof.Proof.KI.Val5
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem

namespace Pass2

variable (m : (ℓ : Loc nD τ sig) → Buf (Elt Ideal) ℓ) (ρ : Dev nD → PrngReg) (c : Dev nD)

section Carry
variable (r : Ref sig .tc)

theorem carry_10_15 (h11 : W11 m ρ c (Proc.devRef .tc r) = W10 m ρ c (Proc.devRef .tc r)) (h12 : r ∉ hostOps4_W)
    (h13 : r ∉ hostOps4_1_W) (h14 : r ∉ hostOps4_2_W) (h15 : r ∉ hostOps4_3_W) :
    W15 m ρ c (Proc.devRef .tc r) = W10 m ρ c (Proc.devRef .tc r) :=
  (W15_of m ρ c r h15).trans ((W14_of m ρ c r h14).trans ((W13_of m ρ c r h13).trans ((W12_of m ρ c r h12).trans h11)))
theorem carry_10_16 (h11 : W11 m ρ c (Proc.devRef .tc r) = W10 m ρ c (Proc.devRef .tc r)) (h12 : r ∉ hostOps4_W)
    (h13 : r ∉ hostOps4_1_W) (h14 : r ∉ hostOps4_2_W) (h15 : r ∉ hostOps4_3_W)
    (h16 : W16 m ρ c (Proc.devRef .tc r) = W15 m ρ c (Proc.devRef .tc r)) :
    W16 m ρ c (Proc.devRef .tc r) = W10 m ρ c (Proc.devRef .tc r) :=
  h16.trans (carry_10_15 m ρ c r h11 h12 h13 h14 h15)

end Carry

abbrev negA : Cert.Spec.Arr2 50000 16 := fun i => Neg.neg (α := EReal) (m ((c : Thread nD τ).loc main_arg0) i)

abbrev Qn : Fin 50000 → Fin 64 → EReal :=
  Cert.Spec.lin (Cert.Spec.m2 (negA m c)) (Cert.Spec.m2 (a := 16) (b := 64) (m ((c : Thread nD τ).loc main_arg3))) (Cert.Spec.m1 (a := 64) (m ((c : Thread nD τ).loc main_arg4)))
abbrev Kn : Fin 50000 → Fin 64 → EReal :=
  Cert.Spec.lin (Cert.Spec.m2 (negA m c)) (Cert.Spec.m2 (a := 16) (b := 64) (m ((c : Thread nD τ).loc main_arg5))) (Cert.Spec.m1 (a := 64) (m ((c : Thread nD τ).loc main_arg6)))
abbrev Vn : Fin 50000 → Fin 64 → EReal :=
  Cert.Spec.lin (Cert.Spec.m2 (negA m c)) (Cert.Spec.m2 (a := 16) (b := 64) (m ((c : Thread nD τ).loc main_arg7))) (Cert.Spec.m1 (a := 64) (m ((c : Thread nD τ).loc main_arg8)))

theorem q_neg (n : Fin 50000) (j : Fin 64) :
    W11 m ρ c (Proc.devRef .tc main_v29) (ix2 n (qcol j)) = Qn m c n j :=
  (congrFun (W11_arr m ρ c 3) _).trans ((final3 (Fr.V10 m ρ) c n (qcol j)).trans
    (lin_third qcol (fun n k => v27_at10 m ρ c n k) (fun k j => (congrFun (v4_at10 m ρ c) (ix2 k (qcol j))).trans (v4_q_at1 m ρ c k j)) (fun j => (v28_at10 m ρ c (qcol j)).trans (v5_q_at1 m ρ c j)) n j))
theorem k_neg (n : Fin 50000) (j : Fin 64) :
    W11 m ρ c (Proc.devRef .tc main_v29) (ix2 n (kcol j)) = Kn m c n j :=
  (congrFun (W11_arr m ρ c 3) _).trans ((final3 (Fr.V10 m ρ) c n (kcol j)).trans
    (lin_third kcol (fun n k => v27_at10 m ρ c n k) (fun k j => (congrFun (v4_at10 m ρ c) (ix2 k (kcol j))).trans (v4_k_at1 m ρ c k j)) (fun j => (v28_at10 m ρ c (kcol j)).trans (v5_k_at1 m ρ c j)) n j))
theorem v_neg (n : Fin 50000) (j : Fin 64) :
    W11 m ρ c (Proc.devRef .tc main_v29) (ix2 n (vcol j)) = Vn m c n j :=
  (congrFun (W11_arr m ρ c 3) _).trans ((final3 (Fr.V10 m ρ) c n (vcol j)).trans
    (lin_third vcol (fun n k => v27_at10 m ρ c n k) (fun k j => (congrFun (v4_at10 m ρ c) (ix2 k (vcol j))).trans (v4_v_at1 m ρ c k j)) (fun j => (v28_at10 m ρ c (vcol j)).trans (v5_v_at1 m ρ c j)) n j))

theorem src_W12 (e : Fin 800000) :
    W12 m ρ c (Proc.devRef .tc main_v1) (ix1 e) = m ((c : Thread nD τ).loc main_arg2) (ix2 0 e) :=
  (congrFun ((W12_of m ρ c main_v1 (by decide)).trans (W11_of_ne m ρ c main_v1 (by decide))) (ix1 e)).trans (v1_at10 m ρ c e)
theorem dst_W13 (e : Fin 800000) :
    W13 m ρ c (Proc.devRef .tc main_v3) (ix1 e) = m ((c : Thread nD τ).loc main_arg2) (ix2 1 e) :=
  (congrFun ((W13_of m ρ c main_v3 (by decide)).trans ((W12_of m ρ c main_v3 (by decide)).trans (W11_of_ne m ρ c main_v3 (by decide)))) (ix1 e)).trans (v3_at10 m ρ c e)
theorem src_W14 (e : Fin 800000) :
    W14 m ρ c (Proc.devRef .tc main_v1) (ix1 e) = m ((c : Thread nD τ).loc main_arg2) (ix2 0 e) :=
  (congrFun ((W14_of m ρ c main_v1 (by decide)).trans ((W13_of m ρ c main_v1 (by decide)).trans ((W12_of m ρ c main_v1 (by decide)).trans (W11_of_ne m ρ c main_v1 (by decide))))) (ix1 e)).trans (v1_at10 m ρ c e)

theorem keys_src (hr : Cert.Spec.InRange (m ((c : Thread nD τ).loc main_arg2))) (e : Fin 800000) (j : Fin 64) :
    W15 m ρ c (Proc.devRef .tc main_v33) (ix2 e j) = Kn m c (Cert.Spec.node (m ((c : Thread nD τ).loc main_arg2)) 0 e) j :=
  (congrFun ((W15_of m ρ c main_v33 (by decide)).trans (W14_of m ρ c main_v33 (by decide))) _).trans
    ((congrFun (run_4_1 (W12 m ρ c)) _).trans ((take_node 0 hr (src_W12 m ρ c) e j).trans
      ((k4 (W11 m ρ c) _ j).trans (k_neg m ρ c _ j))))

theorem queries_dst (hr : Cert.Spec.InRange (m ((c : Thread nD τ).loc main_arg2))) (e : Fin 800000) (j : Fin 64) :
    W15 m ρ c (Proc.devRef .tc main_v34) (ix2 e j) = Qn m c (Cert.Spec.node (m ((c : Thread nD τ).loc main_arg2)) 1 e) j :=
  (congrFun (W15_of m ρ c main_v34 (by decide)) _).trans
    ((congrFun (run_4_2 (W13 m ρ c)) _).trans ((take_node 1 hr (dst_W13 m ρ c) e j).trans
      ((congrFun (W13_of m ρ c main_v30 (by decide)) _).trans ((q4 (W11 m ρ c) _ j).trans (q_neg m ρ c _ j)))))

theorem values_src (hr : Cert.Spec.InRange (m ((c : Thread nD τ).loc main_arg2))) (e : Fin 800000) (j : Fin 64) :
    W15 m ρ c (Proc.devRef .tc main_v35) (ix2 e j) = Vn m c (Cert.Spec.node (m ((c : Thread nD τ).loc main_arg2)) 0 e) j :=
  (congrFun (run_4_3 (W14 m ρ c)) _).trans ((take_node 0 hr (src_W14 m ρ c) e j).trans
    ((congrFun ((W14_of m ρ c main_v32 (by decide)).trans (W13_of m ρ c main_v32 (by decide))) _).trans
      ((v4 (W11 m ρ c) _ j).trans (v_neg m ρ c _ j))))

theorem mod_W15 (e : Fin 800000) (j : Fin 64) : W15 m ρ c (Proc.devRef .tc main_v7) (ix2 e j) = sE m c e j :=
  (congrFun (carry_10_15 m ρ c main_v7 (W11_of_ne m ρ c _ (by decide)) (by decide) (by decide) (by decide) (by decide)) (ix2 e j)).trans
    (v7_at10 m ρ c e j)

theorem grp_W15 (j : Fin 64) (h : Fin 8) : W15 m ρ c (Proc.devRef .tc main_cst) (ix2 j h) = Cert.Spec.grp j h :=
  (congrFun (carry_10_15 m ρ c main_cst (W11_of_ne m ρ c _ (by decide)) (by decide) (by decide) (by decide) (by decide)) (ix2 j h)).trans
    (cst_at10 m ρ c j h)
theorem grpT_W15 (h : Fin 8) (j : Fin 64) : W15 m ρ c (Proc.devRef .tc main_cst_0) (ix2 h j) = Cert.Spec.grp j h :=
  (congrFun (carry_10_15 m ρ c main_cst_0 (W11_of_ne m ρ c _ (by decide)) (by decide) (by decide) (by decide) (by decide)) (ix2 h j)).trans
    (cst0_at10 m ρ c h j)

theorem weights_neg (hr : Cert.Spec.InRange (m ((c : Thread nD τ).loc main_arg2))) (e : Fin 800000) (h : Fin 8) :
    W16 m ρ c (Proc.devRef .tc main_v36_0) (ix2 e h)
      = Cert.Spec.weight (Qn m c) (Kn m c) (sE m c) (m ((c : Thread nD τ).loc main_arg2)) e h :=
  (congrFun (W16_arr m ρ c 6) _).trans ((final4_w (Fr.V15 m ρ) c (grp_W15 m ρ c) e h).trans
    (edgeW_congr (keys_src m ρ c hr) (queries_dst m ρ c hr) (mod_W15 m ρ c) e h))

theorem wvalues_neg (hr : Cert.Spec.InRange (m ((c : Thread nD τ).loc main_arg2))) (e : Fin 800000) (j : Fin 64) :
    W16 m ρ c (Proc.devRef .tc main_v36_1) (ix2 e j)
      = Cert.Spec.weight (Qn m c) (Kn m c) (sE m c) (m ((c : Thread nD τ).loc main_arg2)) e (Cert.Spec.head j)
          * Vn m c (Cert.Spec.node (m ((c : Thread nD τ).loc main_arg2)) 0 e) j :=
  (congrFun (W16_arr m ρ c 7) _).trans ((final4_c (Fr.V15 m ρ) c (grp_W15 m ρ c) (grpT_W15 m ρ c) e j).trans
    (congrArg₂ (· * ·) (edgeW_congr (keys_src m ρ c hr) (queries_dst m ρ c hr) (mod_W15 m ρ c) e _) (values_src m ρ c hr e j)))

theorem dst_W16 (e : Fin 800000) :
    W16 m ρ c (Proc.devRef .tc main_v3) (ix1 e) = m ((c : Thread nD τ).loc main_arg2) (ix2 1 e) :=
  (congrFun (carry_10_16 m ρ c main_v3 (W11_of_ne m ρ c _ (by decide)) (by decide) (by decide) (by decide) (by decide)
    (W16_of_ne m ρ c _ (by decide))) (ix1 e)).trans (v3_at10 m ρ c e)
theorem grpT_W16 (h : Fin 8) (j : Fin 64) : W16 m ρ c (Proc.devRef .tc main_cst_0) (ix2 h j) = Cert.Spec.grp j h :=
  (congrFun (W16_in m ρ c 5 rfl) (ix2 h j)).trans (grpT_W15 m ρ c h j)

theorem phi_neg (hr : Cert.Spec.InRange (m ((c : Thread nD τ).loc main_arg2))) (n : Fin 50000) (j : Fin 64) :
    W17 m ρ c (Proc.devRef .tc main_v46) (ix2 n j)
      = Cert.Spec.phi (Qn m c) (Kn m c) (Vn m c) (sE m c) (m ((c : Thread nD τ).loc main_arg2)) n j :=
  (collect5 (W16 m ρ c) n j).trans
    (quot_phi (dst_W16 m ρ c) (wvalues_neg m ρ c hr) (weights_neg m ρ c hr) (grpT_W16 m ρ c) n j)

theorem w1_W17 : W17 m ρ c (Proc.devRef .tc main_arg11) = m ((c : Thread nD τ).loc main_arg11) :=
  (W18_in m ρ c 1 rfl).symm.trans (W18_main_arg11 m ρ c)
theorem w2_W17 : W17 m ρ c (Proc.devRef .tc main_arg13) = m ((c : Thread nD τ).loc main_arg13) :=
  (W18_in m ρ c 3 rfl).symm.trans (W18_main_arg13 m ρ c)
theorem b1_W17 (k : Fin 128) : W17 m ρ c (Proc.devRef .tc main_v48) (ix2 0 k) = m ((c : Thread nD τ).loc main_arg12) (ix1 k) :=
  (bias5a (W16 m ρ c) k).trans (congrFun ((W17_of m ρ c main_arg12 (by decide)).symm.trans
    ((W18_of_ne m ρ c main_arg12 (by decide)).symm.trans (W18_main_arg12 m ρ c))) (ix1 k))
theorem b2_W17 (o : Fin 64) : W17 m ρ c (Proc.devRef .tc main_v49) (ix2 0 o) = m ((c : Thread nD τ).loc main_arg14) (ix1 o) :=
  (bias5b (W16 m ρ c) o).trans (congrFun ((W17_of m ρ c main_arg14 (by decide)).symm.trans
    ((W18_of_ne m ρ c main_arg14 (by decide)).symm.trans (W18_main_arg14 m ρ c))) (ix1 o))

theorem mlp_congr (A A' : Fin 64 → Fin 128 → EReal) (b b' : Fin 128 → EReal) (B B' : Fin 128 → Fin 64 → EReal) (d d' : Fin 64 → EReal)
    (h h' : Fin 50000 → Fin 64 → EReal) (e1 : ∀ j k, A j k = A' j k) (e2 : ∀ k, b k = b' k) (e3 : ∀ k o, B k o = B' k o)
    (e4 : ∀ o, d o = d' o) (e5 : ∀ n j, h n j = h' n j) (n : Fin 50000) (o : Fin 64) :
    Cert.Spec.mlp A b B d h n o = Cert.Spec.mlp A' b' B' d' h' n o := by
  rw [show A = A' from funext fun j => funext (e1 j), show b = b' from funext e2, show B = B' from funext fun k => funext (e3 k),
    show d = d' from funext e4, show h = h' from funext fun n => funext (e5 n)]

end Pass2

theorem kernel_value (m : (ℓ : Loc nD τ sig) → Buf (Elt Ideal) ℓ) (ρ : Dev nD → PrngReg) (c : Dev nD)
    (hr : Cert.Spec.InRange (m ((c : Thread nD τ).loc main_arg2))) (n : Fin 50000) (o : Fin 64) :
    W18 m ρ c (Proc.devRef .tc main_v50) (ix2 n o)
      = Cert.Spec.outA (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) n o := by
  refine (congrFun (W18_arr m ρ c 5) _).trans ((final5 (Fr.V17 m ρ) c n o).trans ?_)
  rw [Cert.Spec.outA_eq]
  exact Pass2.mlp_congr _ _ _ _ _ _ _ _ _ _ (fun j k => congrFun (Pass2.w1_W17 m ρ c) (ix2 j k)) (Pass2.b1_W17 m ρ c)
    (fun k o => congrFun (Pass2.w2_W17 m ρ c) (ix2 k o)) (Pass2.b2_W17 m ρ c)
    (fun n j => (sum5 (W16 m ρ c) n j).trans (congrArg₂ (· + ·)
      ((congrFun (Pass2.carry_10_16 m ρ c main_v26 (W11_of_ne m ρ c main_v26 (by decide)) (by decide) (by decide) (by decide) (by decide)
        (W16_of_ne m ρ c main_v26 (by decide))) (ix2 n j)).trans (attn_pos m ρ c hr n j))
      (Pass2.phi_neg m ρ c hr n j))) n o

end Cert.KernelIdeal.Val

end
-- ==== Proof.LibSlabGatherScatter.lean ====
import Idealize.ShloMosaic.PureOps.Ideal
import Idealize.ShloMosaic.PureOps.Contract
import Idealize.ShloMosaic.Lib.ValueIdx
import Mathlib.Algebra.BigOperators.Group.Finset.Basic
import Mathlib.Algebra.BigOperators.Fin
import proofs.«412297_j88252987998303_2_alg».proof.Proof.LibRowGatherScatter

noncomputable section

open scoped BigOperators

namespace Cert.Lib3

open Idealize.ShloMosaic Idealize.ShloMosaic.ValueIdx Cert.ReferenceIdeal.Hand

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

-- A rank-3 index set is the product of its coordinate ranges, so a sum over it is a triple sum.
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section Gather
variable {α : Type}

abbrev slabGather (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

-- Slab e of the result is the table's slab at the start word of e, read signed and clamped into the slabs.
theorem slabGather_apply {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (slabGather N E A B wf) x idx (ix3 e a b)
      = x (ix3 ⟨min (idx (ix2 e 0)).toInt.toNat (N - 1), by omega⟩ a b) := by
  refine gather_at _ x idx _ _ (Fin.forall_fin_succ.2 ⟨?_, Fin.forall_fin_two.2 ⟨Nat.zero_add _, Nat.zero_add _⟩⟩)
  exact congrArg (fun k => min (idx k).toInt.toNat (N - 1))
    (funext fun b => match b with | ⟨0, _⟩ => rfl | ⟨1, _⟩ => rfl)

end Gather

section Scatter

abbrev slabScatter (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable {N E A B w : Nat} (wf : ScatterDims.WF ⟨3, ![N, A, B]⟩ ⟨2, ![E, 1]⟩ ⟨3, ![E, A, B]⟩ [1, 2] [0] [0] 1)
  (idx : IVec ⟨2, ![E, 1]⟩ w)

-- Update (e, a', b') lands at slab (start word of e, read signed, not clamped), entry (a', b').
theorem slabScatter_resultIdx_iff (e : Fin E) (a' : Fin A) (b' : Fin B) (d : Fin N) (a : Fin A) (b : Fin B) :
    (slabScatter N E A B wf).resultIdx? (ix3 e a' b') idx = some (ix3 d a b)
      ↔ (idx (ix2 e 0)).toInt = (d.val : ℤ) ∧ a' = a ∧ b' = b := by
  have h0 : (slabScatter N E A B wf).start (ix3 e a' b') idx 0 = (idx (ix2 e 0)).toInt :=
    congrArg (fun k => (idx k).toInt) (funext fun b => match b with | ⟨0, _⟩ => rfl | ⟨1, _⟩ => rfl)
  rw [resultIdx_some_iff, Fin.forall_fin_succ, Fin.forall_fin_two]
  show (slabScatter N E A B wf).start (ix3 e a' b') idx 0 + (0 : ℕ) = d.val
    ∧ (0 : ℤ) + (a'.val : ℕ) = a.val ∧ (0 : ℤ) + (b'.val : ℕ) = b.val ↔ _
  rw [h0, Fin.ext_iff, Fin.ext_iff]
  omega

-- Splitting the sum over update indices by coordinates, only entry (a, b) of the edges sent to slab d survives.
theorem slabScatterAdd_apply {φ : FTy} (x : FVec Ideal ⟨3, ![N, A, B]⟩ φ) (upd : FVec Ideal ⟨3, ![E, A, B]⟩ φ)
    (d : Fin N) (a : Fin A) (b : Fin B) :
    Host.scatterAdd (F := Ideal) (slabScatter N E A B wf) x idx upd (ix3 d a b)
      = x (ix3 d a b)
        + ∑ e ∈ Finset.univ.filter (fun e : Fin E => (idx (ix2 e 0)).toInt = (d.val : ℤ)), upd (ix3 e a b) := by
  show Ideal.hostScatterAdd (slabScatter N E A B wf) x idx upd (ix3 d a b) = _
  unfold Ideal.hostScatterAdd
  congr 1
  rw [Finset.sum_filter, sum_idx3, Finset.sum_filter]
  refine Finset.sum_congr rfl fun e _ => ?_
  by_cases hd : (idx (ix2 e 0)).toInt = (d.val : ℤ) <;> simp [slabScatter_resultIdx_iff, hd, ite_and]

end Scatter

end Cert.Lib3

end
-- ==== Proof.Ref.Pass1.lean ====
import proofs.«412297_j88252987998303_2_alg».proof.Proof.Gen.ReferenceIdeal.Read
import proofs.«412297_j88252987998303_2_alg».proof.Proof.Spec
import proofs.«412297_j88252987998303_2_alg».proof.Proof.LibRowGatherScatter
import proofs.«412297_j88252987998303_2_alg».proof.Proof.LibSlabGatherScatter

noncomputable section

open scoped BigOperators

namespace Cert.ReferenceIdeal.RefValue

open Cert.ReferenceIdeal Cert.ReferenceIdeal.Read Idealize.ShloMosaic Idealize.ShloMosaic.ValueIdx Cert.Spec

abbrev Codes : Type := (⟨S50000x16, .f32⟩ : BufTy).Contents (Elt Ideal)
abbrev Feats : Type := (⟨S800000x16, .f32⟩ : BufTy).Contents (Elt Ideal)
abbrev Edges : Type := (⟨S2x800000, .i32⟩ : BufTy).Contents (Elt Ideal)
abbrev Wt : Type := (⟨S16x64, .f32⟩ : BufTy).Contents (Elt Ideal)
abbrev Bs : Type := (⟨S64, .f32⟩ : BufTy).Contents (Elt Ideal)
abbrev Tbl : Type := (⟨S50000x8x8, .f32⟩ : BufTy).Contents (Elt Ideal)

theorem head_col (h d : Fin 8) : head (col h d) = h :=
  Fin.ext (by show (8 * h.val + d.val) / 8 = h.val; omega)

-- Entry (n, h, d) of the reshaped affine map is column 8h + d of row n.
theorem lin_node (x : Codes) (W : Wt) (b : Bs) (n : Fin 50000) (h d : Fin 8) :
    val_main_v8 (F := Ideal) x W b (ix3 n h d) = lin (m2 x) (m2 W) (m1 b) n (col h d) := by
  have e8 : idx_main_v8 (ix3 n h d) = ix2 n (col h d) := funext fun a => Fin.ext (by
    match a with
    | ⟨0, _⟩ => show ((n.val * 8 + h.val) * 8 + d.val) / 64 = n.val; omega
    | ⟨1, _⟩ => show ((n.val * 8 + h.val) * 8 + d.val) % 64 = 8 * h.val + d.val; omega)
  have el : ∀ k : Fin 16, lidx_main_v4 (ix2 n (col h d)) k = ix2 n k := fun k => eq_ix2 _
  have er : ∀ k : Fin 16, ridx_main_v4 (ix2 n (col h d)) k = ix2 k (col h d) := fun k => eq_ix2 _
  have eb : idx_main_v5 (idx_main_v6 (ix2 n (col h d))) = ix1 (col h d) := eq_ix1 _
  rw [val_main_v8_apply, e8, val_main_v7_apply, val_main_v4_apply, val_main_v6_apply, val_main_v5_apply, eb]
  simp only [Ideal.addf_def, el, er]
  rfl

theorem v13_eq (x : Codes) (W : Wt) (b : Bs) : val_main_v13 (F := Ideal) x W b = val_main_v8 (F := Ideal) x W b := rfl
theorem v18_eq (x : Codes) (W : Wt) (b : Bs) : val_main_v18 (F := Ideal) x W b = val_main_v8 (F := Ideal) x W b := rfl

theorem lin_edge (x : Feats) (W : Wt) (b : Bs) (e : Fin 800000) (h d : Fin 8) :
    val_main_v23 (F := Ideal) x W b (ix3 e h d) = lin (m2 x) (m2 W) (m1 b) e (col h d) := by
  have e23 : idx_main_v23 (ix3 e h d) = ix2 e (col h d) := funext fun a => Fin.ext (by
    match a with
    | ⟨0, _⟩ => show ((e.val * 8 + h.val) * 8 + d.val) / 64 = e.val; omega
    | ⟨1, _⟩ => show ((e.val * 8 + h.val) * 8 + d.val) % 64 = 8 * h.val + d.val; omega)
  have el : ∀ k : Fin 16, lidx_main_v19 (ix2 e (col h d)) k = ix2 e k := fun k => eq_ix2 _
  have er : ∀ k : Fin 16, ridx_main_v19 (ix2 e (col h d)) k = ix2 k (col h d) := fun k => eq_ix2 _
  have eb : idx_main_v20 (idx_main_v21 (ix2 e (col h d))) = ix1 (col h d) := eq_ix1 _
  rw [val_main_v23_apply, e23, val_main_v22_apply, val_main_v19_apply, val_main_v21_apply, val_main_v20_apply, eb]
  simp only [Ideal.addf_def, el, er]
  rfl

theorem row0_word (x2 : Edges) (e : Fin 800000) : val_main_v1 (F := Ideal) x2 (ix1 e) = x2 (ix2 0 e) := by
  have e0 : idx_main_v0 (idx_main_v1 (ix1 e)) = ix2 0 e := funext fun a => Fin.ext (by
    match a with
    | ⟨0, _⟩ => rfl
    | ⟨1, _⟩ => show e.val % 800000 = e.val; omega)
  rw [val_main_v1_apply, val_main_v0_apply, e0]

theorem row1_word (x2 : Edges) (e : Fin 800000) : val_main_v3 (F := Ideal) x2 (ix1 e) = x2 (ix2 1 e) := by
  have e2 : idx_main_v2 (idx_main_v3 (ix1 e)) = ix2 1 e := funext fun a => Fin.ext (by
    match a with
    | ⟨0, _⟩ => rfl
    | ⟨1, _⟩ => show e.val % 800000 = e.val; omega)
  rw [val_main_v3_apply, val_main_v2_apply, e2]

-- In range a word is not negative, so counting a negative word from the end leaves it as it is.
theorem src_word (x2 : Edges) (hr : InRange x2) (e : Fin 800000) :
    val_main_v29 (F := Ideal) x2 (ix2 e 0) = x2 (ix2 0 e) := by
  have e29 : idx_main_v29 (ix2 e 0) = ix1 e := eq_ix1 _
  rw [val_main_v29_apply, e29, val_main_v28_apply, val_main_v25_apply, val_main_v27_apply, val_main_v24_apply,
    val_main_c_apply, val_main_v26_apply, val_main_c_0_apply, Hand.wrap_select, row0_word,
    if_neg (not_lt.mpr (hr 0 e).1)]

theorem dst_word (x2 : Edges) (hr : InRange x2) (e : Fin 800000) :
    val_main_v36 (F := Ideal) x2 (ix2 e 0) = x2 (ix2 1 e) := by
  have e36 : idx_main_v36 (ix2 e 0) = ix1 e := eq_ix1 _
  rw [val_main_v36_apply, e36, val_main_v35_apply, val_main_v32_apply, val_main_v34_apply, val_main_v31_apply,
    val_main_c_1_apply, val_main_v33_apply, val_main_c_2_apply, Hand.wrap_select, row1_word,
    if_neg (not_lt.mpr (hr 1 e).1)]

theorem dst_raw (x2 : Edges) (e : Fin 800000) :
    val_main_v56 (F := Ideal) x2 (ix2 e 0) = x2 (ix2 1 e) := by
  have e56 : idx_main_v56 (ix2 e 0) = ix1 e := eq_ix1 _
  rw [val_main_v56_apply, e56, row1_word]

theorem v51_eq (x2 : Edges) : val_main_v51 (F := Ideal) x2 = val_main_v29 (F := Ideal) x2 := rfl
theorem v59_eq (x2 : Edges) : val_main_v59 (F := Ideal) x2 = val_main_v56 (F := Ideal) x2 := rfl

theorem gather_eq : gather_S50000x8x8_S800000x1_S800000x8x8_12_0_n_n_0_1_188 = Lib3.slabGather 50000 800000 8 8 (by decide) := rfl

-- In range the lookup's clamp of a word is the word itself, the specification's node of the edge.
theorem gather_node (x2 : Edges) (T : Tbl) (idx : IVec ⟨2, ![800000, 1]⟩ 32) (r : Fin 2) (e : Fin 800000) (h d : Fin 8)
    (hw : idx (ix2 e 0) = x2 (ix2 r e)) :
    Host.gather gather_S50000x8x8_S800000x1_S800000x8x8_12_0_n_n_0_1_188 T idx (ix3 e h d) = T (ix3 (node x2 r e) h d) := by
  rw [gather_eq, Lib3.slabGather_apply (by decide) _ T idx e h d]
  simp only [hw]
  rfl

section Pass
variable (x0 : Codes) (x1 : Feats) (x2 : Edges) (x3 : Wt) (x4 : Bs) (x5 : Wt) (x6 : Bs) (x7 : Wt) (x8 : Bs) (x9 : Wt) (x10 : Bs)

theorem score_at (hr : InRange x2) (e : Fin 800000) (h d : Fin 8) :
    val_main_v41 (F := Ideal) x0 x1 x2 x3 x4 x5 x6 x9 x10 (ix3 e h d)
      = lin (m2 x0) (m2 x5) (m1 x6) (node x2 0 e) (col h d) * lin (m2 x0) (m2 x3) (m1 x4) (node x2 1 e) (col h d) * scale
          * lin (m2 x1) (m2 x9) (m1 x10) e (col h d) := by
  rw [val_main_v41_apply, val_main_v40_apply, val_main_v38_apply, val_main_v39_apply, val_main_cst_apply, lin_edge]
  unfold val_main_v30 val_main_v37
  rw [gather_node x2 _ _ 0 e h d (src_word x2 hr e), gather_node x2 _ _ 1 e h d (dst_word x2 hr e), v13_eq, lin_node,
    lin_node]
  simp only [Ideal.mulf_def, Ideal.ofBits_def]
  rfl

-- The exponential of the clipped sum over the features of key · query · scale · modulation.
theorem weight_at (hr : InRange x2) (e : Fin 800000) (h : Fin 8) :
    val_main_v44 (F := Ideal) x0 x1 x2 x3 x4 x5 x6 x9 x10 (ix2 e h)
      = weight (lin (m2 x0) (m2 x3) (m1 x4)) (lin (m2 x0) (m2 x5) (m1 x6)) (lin (m2 x1) (m2 x9) (m1 x10)) x2 e h := by
  have ek : ∀ k : Fin 8, idx_main_v42 (ix2 e h) k = ix3 e h k := fun k => eq_ix3 _
  rw [val_main_v44_apply, val_main_v43_apply, val_main_call0_v4_apply, val_main_call0_v3_apply, val_main_cst_5_apply,
    val_main_call0_v2_apply, val_main_call0_v1_apply, val_main_call0_v0_apply, val_main_cst_4_apply,
    val_main_v42_apply, val_main_cst_3_apply]
  simp only [Ideal.hostUnary_exp_def, Ideal.minimumf_def, Ideal.maximumf_def, Ideal.ofBits_def, Ideal.ofBits_zero_f32,
    zero_add, ek, score_at x0 x1 x2 x3 x4 x5 x6 x9 x10 hr]
  rfl

theorem weighted_at (hr : InRange x2) (e : Fin 800000) (h d : Fin 8) :
    val_main_v54 (F := Ideal) x0 x1 x2 x3 x4 x5 x6 x7 x8 x9 x10 (ix3 e h d)
      = weight (lin (m2 x0) (m2 x3) (m1 x4)) (lin (m2 x0) (m2 x5) (m1 x6)) (lin (m2 x1) (m2 x9) (m1 x10)) x2 e h
          * lin (m2 x0) (m2 x7) (m1 x8) (node x2 0 e) (col h d) := by
  have e45 : idx_main_v45 (idx_main_v53 (ix3 e h d)) = ix2 e h := eq_ix2 _
  rw [val_main_v54_apply, val_main_v53_apply, val_main_v45_apply, e45, weight_at x0 x1 x2 x3 x4 x5 x6 x9 x10 hr]
  unfold val_main_v52
  rw [v51_eq, gather_node x2 _ _ 0 e h d (src_word x2 hr e), v18_eq, lin_node]
  rfl

theorem scatter8_eq : scatter_S50000x8x8_S800000x1_S800000x8x8_12_0_0_1 = Lib3.slabScatter 50000 800000 8 8 (by decide) := rfl
theorem scatter1_eq : scatter_S50000x8x1_S800000x1_S800000x8x1_12_0_0_1 = Lib3.slabScatter 50000 800000 8 1 (by decide) := rfl

-- The edges whose raw destination word is n are the edges that end at n.
theorem filter_dst (n : Fin 50000) :
    Finset.univ.filter (fun e : Fin 800000 => (val_main_v56 (F := Ideal) x2 (ix2 e 0)).toInt = (n.val : ℤ)) = incoming x2 n := by
  unfold incoming
  simp only [dst_raw]

theorem num_at (hr : InRange x2) (n : Fin 50000) (h d : Fin 8) :
    val_main_v57 (F := Ideal) x0 x1 x2 x3 x4 x5 x6 x7 x8 x9 x10 (ix3 n h d)
      = num (lin (m2 x0) (m2 x3) (m1 x4)) (lin (m2 x0) (m2 x5) (m1 x6)) (lin (m2 x0) (m2 x7) (m1 x8))
          (lin (m2 x1) (m2 x9) (m1 x10)) x2 n (col h d) := by
  unfold val_main_v57
  rw [scatter8_eq, Lib3.slabScatterAdd_apply, filter_dst, val_main_v55_apply, val_main_cst_8_apply]
  simp only [Ideal.ofBits_def, Ideal.ofBits_zero_f32, zero_add, weighted_at x0 x1 x2 x3 x4 x5 x6 x7 x8 x9 x10 hr]
  unfold num
  rw [head_col]

theorem den_at (hr : InRange x2) (n : Fin 50000) (h : Fin 8) :
    val_main_v60 (F := Ideal) x0 x1 x2 x3 x4 x5 x6 x9 x10 (ix3 n h 0)
      = den (lin (m2 x0) (m2 x3) (m1 x4)) (lin (m2 x0) (m2 x5) (m1 x6)) (lin (m2 x1) (m2 x9) (m1 x10)) x2 n h := by
  have e45 : ∀ e : Fin 800000, idx_main_v45 (ix3 e h 0) = ix2 e h := fun e => eq_ix2 _
  unfold val_main_v60
  rw [scatter1_eq, Lib3.slabScatterAdd_apply, v59_eq, filter_dst, val_main_v58_apply, val_main_cst_9_apply]
  simp only [Ideal.ofBits_def, Ideal.ofBits_zero_f32, zero_add, val_main_v45_apply, e45,
    weight_at x0 x1 x2 x3 x4 x5 x6 x9 x10 hr]
  rfl

-- The quotient of what a node collects by the weights it collects is φ.
theorem ref_attn_pos (hr : InRange x2) (n : Fin 50000) (h d : Fin 8) :
    val_main_v64 (F := Ideal) x0 x1 x2 x3 x4 x5 x6 x7 x8 x9 x10 (ix3 n h d)
      = attnA x0 x1 x2 x3 x4 x5 x6 x7 x8 x9 x10 n (col h d) := by
  have e63 : idx_main_v63 (ix3 n h d) = ix3 n h 0 := eq_ix3 _
  rw [val_main_v64_apply, val_main_v63_apply, e63, val_main_v62_apply, val_main_v61_apply, val_main_cst_10_apply,
    num_at x0 x1 x2 x3 x4 x5 x6 x7 x8 x9 x10 hr, den_at x0 x1 x2 x3 x4 x5 x6 x9 x10 hr]
  simp only [Ideal.hostDivf_def, Ideal.addf_def, Ideal.ofBits_def]
  unfold attnA attn phi
  rw [head_col]
  rfl

end Pass

end Cert.ReferenceIdeal.RefValue

end
-- ==== Proof.Ref.Pass2.lean ====
import proofs.«412297_j88252987998303_2_alg».proof.Proof.Gen.ReferenceIdeal.Read
import proofs.«412297_j88252987998303_2_alg».proof.Proof.Spec
import proofs.«412297_j88252987998303_2_alg».proof.Proof.Ref.Pass1

noncomputable section

namespace Cert.ReferenceIdeal.RefValue

open Cert.ReferenceIdeal Cert.ReferenceIdeal.Read Idealize.ShloMosaic Idealize.ShloMosaic.ValueIdx Cert.Spec

-- The second pass is the first pass's term at the negated codes, and the negation is the extended reals'.
theorem ref_attn_neg (x0 : Codes) (x1 : Feats) (x2 : Edges) (x3 : Wt) (x4 : Bs) (x5 : Wt) (x6 : Bs) (x7 : Wt) (x8 : Bs)
    (x9 : Wt) (x10 : Bs) (hr : InRange x2) (n : Fin 50000) (h d : Fin 8) :
    val_main_v126 (F := Ideal) x0 x1 x2 x3 x4 x5 x6 x7 x8 x9 x10 (ix3 n h d)
      = attnA (fun i => - x0 i) x1 x2 x3 x4 x5 x6 x7 x8 x9 x10 n (col h d) :=
  ref_attn_pos (fun i => - x0 i) x1 x2 x3 x4 x5 x6 x7 x8 x9 x10 hr n h d

end Cert.ReferenceIdeal.RefValue

end
-- ==== Proof.Ref.Out.lean ====
import proofs.«412297_j88252987998303_2_alg».proof.Proof.Gen.ReferenceIdeal.Read
import proofs.«412297_j88252987998303_2_alg».proof.Proof.Spec
import proofs.«412297_j88252987998303_2_alg».proof.Proof.Ref.Pass1
import proofs.«412297_j88252987998303_2_alg».proof.Proof.Ref.Pass2

noncomputable section

open scoped BigOperators

namespace Cert.ReferenceIdeal.RefValue

open Cert.ReferenceIdeal Cert.ReferenceIdeal.Gen Cert.ReferenceIdeal.Read Idealize.ShloMosaic Idealize.ShloMosaic.ValueIdx
  Cert.Spec

section Out
variable (x0 : Codes) (x1 : Feats) (x2 : Edges) (x3 : Wt) (x4 : Bs) (x5 : Wt) (x6 : Bs) (x7 : Wt) (x8 : Bs) (x9 : Wt) (x10 : Bs)
  (x11 : (⟨S64x128, .f32⟩ : BufTy).Contents (Elt Ideal)) (x12 : (⟨S128, .f32⟩ : BufTy).Contents (Elt Ideal))
  (x13 : (⟨S128x64, .f32⟩ : BufTy).Contents (Elt Ideal)) (x14 : Bs)

-- Flattening (head, feature) reads column j at (j / 8, j % 8), and 8 (j / 8) + j % 8 = j.
theorem ref_hidden (hr : InRange x2) (n : Fin 50000) (j : Fin 64) :
    val_main_v128 (F := Ideal) x0 x1 x2 x3 x4 x5 x6 x7 x8 x9 x10 (ix2 n j)
      = attnA x0 x1 x2 x3 x4 x5 x6 x7 x8 x9 x10 n j + attnA (fun i => - x0 i) x1 x2 x3 x4 x5 x6 x7 x8 x9 x10 n j := by
  have hj : j.val < 64 := j.isLt
  have ei : idx_main_v128 (ix2 n j) = ix3 n (head j) (⟨j.val % 8, Nat.mod_lt _ (by decide)⟩ : Fin 8) :=
    funext fun a => Fin.ext (by
      match a with
      | ⟨0, _⟩ => show (n.val * 64 + j.val) / 64 = n.val; omega
      | ⟨1, _⟩ => show (n.val * 64 + j.val) / 8 % 8 = j.val / 8; omega
      | ⟨2, _⟩ => show (n.val * 64 + j.val) % 8 = j.val % 8; omega)
  have ec : col (head j) (⟨j.val % 8, Nat.mod_lt _ (by decide)⟩ : Fin 8) = j := colEquiv.right_inv j
  rw [val_main_v128_apply, ei, val_main_v127_apply, Ideal.addf_def,
    ref_attn_pos x0 x1 x2 x3 x4 x5 x6 x7 x8 x9 x10 hr, ref_attn_neg x0 x1 x2 x3 x4 x5 x6 x7 x8 x9 x10 hr, ec]

-- A product with a weight matrix is the sum over the contracted axis; the bias is spread along the nodes.
theorem ref_act (hr : InRange x2) (n : Fin 50000) (k : Fin 128) :
    val_main_v133 (F := Ideal) x0 x1 x2 x3 x4 x5 x6 x7 x8 x9 x10 x11 x12 (ix2 n k)
      = max (lin (fun n j => attnA x0 x1 x2 x3 x4 x5 x6 x7 x8 x9 x10 n j
            + attnA (fun i => - x0 i) x1 x2 x3 x4 x5 x6 x7 x8 x9 x10 n j) (m2 x11) (m1 x12) n k) 0 := by
  have el : ∀ k' : Fin 64, lidx_main_v129 (ix2 n k) k' = ix2 n k' := fun k' => eq_ix2 _
  have er : ∀ k' : Fin 64, ridx_main_v129 (ix2 n k) k' = ix2 k' k := fun k' => eq_ix2 _
  have eb : idx_main_v130 (idx_main_v131 (ix2 n k)) = ix1 k := eq_ix1 _
  rw [val_main_v133_apply, val_main_call2_v0_apply, val_main_call2_cst_apply, Ideal.maximumf_def, Ideal.ofBits_def,
    Ideal.ofBits_zero_f32, val_main_v132_apply, val_main_v129_apply, val_main_v131_apply, val_main_v130_apply, eb,
    Ideal.addf_def]
  unfold lin
  refine congrArg₂ max (congrArg₂ (· + ·) (Finset.sum_congr rfl fun k' _ => ?_) rfl) rfl
  rw [el, er, ref_hidden x0 x1 x2 x3 x4 x5 x6 x7 x8 x9 x10 hr]
  rfl

theorem ref_out (hr : InRange x2) (n : Fin 50000) (o : Fin 64) :
    val_main_v137 (F := Ideal) x0 x1 x2 x3 x4 x5 x6 x7 x8 x9 x10 x11 x12 x13 x14 (ix2 n o)
      = outA x0 x1 x2 x3 x4 x5 x6 x7 x8 x9 x10 x11 x12 x13 x14 n o := by
  have el : ∀ k : Fin 128, lidx_main_v134 (ix2 n o) k = ix2 n k := fun k => eq_ix2 _
  have er : ∀ k : Fin 128, ridx_main_v134 (ix2 n o) k = ix2 k o := fun k => eq_ix2 _
  have eb : idx_main_v135 (idx_main_v136 (ix2 n o)) = ix1 o := eq_ix1 _
  rw [outA_eq, val_main_v137_apply, val_main_v134_apply, val_main_v136_apply, val_main_v135_apply, eb, Ideal.addf_def]
  unfold mlp
  refine congrArg₂ (· + ·) (Finset.sum_congr rfl fun k _ => ?_) rfl
  rw [el, er, ref_act x0 x1 x2 x3 x4 x5 x6 x7 x8 x9 x10 x11 x12 hr]
  rfl

end Out

theorem ref_result (m' : (ℓ : Loc Cert.ReferenceIdeal.nD Cert.ReferenceIdeal.τ Cert.ReferenceIdeal.sig) → Buf (Elt Ideal) ℓ) (c : Dev Cert.ReferenceIdeal.nD)
    (hr : Cert.Spec.InRange (m' ((c.tc : Thread _ _).loc Cert.ReferenceIdeal.main_arg2))) (n : Fin 50000) (o : Fin 64) :
    Cert.ReferenceIdeal.Value.res_main_v137 (F := Ideal) m' c (ix2 n o)
      = Cert.Spec.outA (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) (m' ((c.tc : Thread _ _).loc Cert.ReferenceIdeal.main_arg7)) (m' ((c.tc : Thread _ _).loc Cert.ReferenceIdeal.main_arg8)) (m' ((c.tc : Thread _ _).loc Cert.ReferenceIdeal.main_arg9)) (m' ((c.tc : Thread _ _).loc Cert.ReferenceIdeal.main_arg10)) (m' ((c.tc : Thread _ _).loc Cert.ReferenceIdeal.main_arg11)) (m' ((c.tc : Thread _ _).loc Cert.ReferenceIdeal.main_arg12)) (m' ((c.tc : Thread _ _).loc Cert.ReferenceIdeal.main_arg13)) (m' ((c.tc : Thread _ _).loc Cert.ReferenceIdeal.main_arg14)) n o := by
  rw [Cert.ReferenceIdeal.Read.val_main_v137_eq]
  exact ref_out _ _ _ _ _ _ _ _ _ _ _ _ _ _ _ hr n o

end Cert.ReferenceIdeal.RefValue

end
-- ==== Proof.PreRange.lean ====
import proofs.«412297_j88252987998303_2_alg».proof.Defs
import proofs.«412297_j88252987998303_2_alg».proof.Proof.Gen.Pre_finite_inputs
import proofs.«412297_j88252987998303_2_alg».proof.Proof.Spec
import Idealize.ShloMosaic.Lib.ReduceAll
import Idealize.ShloMosaic.Lib.StableHlo.Predicate

namespace Cert.PreRange

open Idealize.ShloMosaic Idealize.ShloMosaic.ValueIdx Idealize.SL.Sem

instance : Subsingleton Cert.Pre_finite_inputs.S_.Idx := ⟨fun a b => funext fun d => d.elim0⟩

-- A conjunction that is 1 has every conjunct 1, and a signed comparison that is 1 orders the words as integers.
theorem part4_range [hP : Cert.Pre_finite_inputs.Facts] {F : FTy → Type} [FloatOps F]
    (a2 : IVec Cert.Pre_finite_inputs.S2x800000 32) (v63 v67 : IVec Cert.Pre_finite_inputs.S_ 1)
    (h : Cert.Pre_finite_inputs.fn_part4 (F := F) a2 v63 v67 ix0 = 1#1) (i : Cert.Pre_finite_inputs.S2x800000.Idx) :
    0 ≤ (a2 i).toInt ∧ (a2 i).toInt < 50000 := by
  unfold Cert.Pre_finite_inputs.fn_part4 at h
  dsimp only [andi] at h
  obtain ⟨⟨-, hge⟩, hlt⟩ := IntOp.andi_eq_one.1 h |>.imp_left IntOp.andi_eq_one.1
  exact ⟨IntOp.cmpi_sge.1 (Host.reduce_andi_all _ _ _ _ _ hge i), IntOp.cmpi_slt.1 (Host.reduce_andi_all _ _ _ _ _ hlt i)⟩

theorem inRange_of_pre [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.InRange (m ((c.tc : Thread Cert.KernelIdeal.nD Cert.KernelIdeal.τ).loc Cert.KernelIdeal.main_arg2)) :=
  fun r e => part4_range (F := Ideal) _ _ _ (congrFun (h c) ix0) (ix2 r e)

end Cert.PreRange
-- ==== Proof.lean ====
import proofs.«412297_j88252987998303_2_alg».proof.Defs
import proofs.«412297_j88252987998303_2_alg».proof.Proof.Gen.Kernel
import proofs.«412297_j88252987998303_2_alg».proof.Proof.Gen.KernelIdeal
import proofs.«412297_j88252987998303_2_alg».proof.Proof.Gen.ReferenceIdeal
import proofs.«412297_j88252987998303_2_alg».proof.Proof.Gen.Pre_finite_inputs
import proofs.«412297_j88252987998303_2_alg».proof.Proof.Gen.ReferenceIdeal.Read
import proofs.«412297_j88252987998303_2_alg».proof.Proof.K.RunMain
import proofs.«412297_j88252987998303_2_alg».proof.Proof.KI.RunMain
import proofs.«412297_j88252987998303_2_alg».proof.Proof.KI.Glue2
import proofs.«412297_j88252987998303_2_alg».proof.Proof.Ref.Out
import proofs.«412297_j88252987998303_2_alg».proof.Proof.PreRange
import Idealize.ShloMosaic.Adequacy
import Idealize.ShloMosaic.Init

noncomputable section

namespace Cert.Proof

open Idealize.ShloMosaic Idealize.SL.Sem Idealize.ShloMosaic.ValueIdx

theorem frame_k : Cert.frame_Kernel (hKernel := Cert.Kernel.Gen.facts) (hPre_finite_inputs := Cert.Pre_finite_inputs.Gen.facts) :=
  fun m ρ _ => (θ_run Cert.Kernel.defs _ _).mono (fun r h c => Cert.Kernel.Fr.args15
    (P := fun a => r.2.mem ((c.tc : Thread Cert.Kernel.nD Cert.Kernel.τ).loc a) = m ((c.tc : Thread Cert.Kernel.nD Cert.Kernel.τ).loc a))
    (Cert.Kernel.Fr.kept m ρ h c)) (Cert.Kernel.Fr.run_all m ρ)

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun r h c => Cert.KernelIdeal.Fr.args15
    (P := fun a => r.2.mem ((c.tc : Thread Cert.KernelIdeal.nD Cert.KernelIdeal.τ).loc a) = m ((c.tc : Thread Cert.KernelIdeal.nD Cert.KernelIdeal.τ).loc a))
    (Cert.KernelIdeal.Fr.kept m ρ h c)) (Cert.KernelIdeal.Fr.run_all m ρ)

theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification's layer of their arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ c : Dev Cert.KernelIdeal.nD, Cert.Spec.InRange (m ((c.tc : Thread Cert.KernelIdeal.nD Cert.KernelIdeal.τ).loc Cert.KernelIdeal.main_arg2)) :=
    fun c => Cert.PreRange.inRange_of_pre m hpre c
  refine ⟨fun c => Cert.KernelIdeal.Fr.W18 m ρ c (Proc.devRef .tc Cert.KernelIdeal.main_v50), ?_, ?_⟩
  · exact (θ_run Cert.KernelIdeal.defs _ _).mono (fun r h c => ⟨h c _ (Cert.KernelIdeal.Fr.mem_uc Cert.KernelIdeal.main_v50 (by decide)),
      Cert.KernelIdeal.Fr.args15
        (P := fun a => r.2.mem ((c.tc : Thread Cert.KernelIdeal.nD Cert.KernelIdeal.τ).loc a) = m ((c.tc : Thread Cert.KernelIdeal.nD Cert.KernelIdeal.τ).loc a))
        (Cert.KernelIdeal.Fr.kept m ρ h c)⟩) (Cert.KernelIdeal.Fr.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    have hr' : Cert.Spec.InRange (m' ((c.tc : Thread Cert.ReferenceIdeal.nD Cert.ReferenceIdeal.τ).loc Cert.ReferenceIdeal.main_arg2)) := by
      rw [a2]; exact hr c
    funext i
    obtain ⟨n, o, rfl⟩ : ∃ (n : Fin 50000) (o : Fin 64), i = ix2 n o := ⟨i 0, i 1, eq_ix2 i⟩
    refine (Cert.ReferenceIdeal.RefValue.ref_result m' c hr' n o).trans ?_
    refine Eq.trans ?_ (Cert.KernelIdeal.Val.kernel_value m ρ c (hr c) n o).symm
    rw [a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
